-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S768 : Shape := ⟨1, ![768]⟩
abbrev S768x768 : Shape := ⟨2, ![768, 768]⟩
abbrev S32x768 : Shape := ⟨2, ![32, 768]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S32x768 : S_.BroadcastsInDim S32x768 (![] : Fin 0 → Fin S32x768.rank)
  reducesTo_S32x768_S_d0_1 : S32x768.ReducesTo [0, 1] S_

variable [Facts]

def fn_part1 {F : FTy → Type} [FloatOps F] (main_arg4 : FVec F S768 .f32) (main_arg5 : FVec F S32x768 .f32) (main_arg6 : FVec F S32x768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S32x768 .f32 := Host.absf main_arg5
  let main_cst_8 : FVec F S_ .f32 := constant S_ .f32 0x7F800000#32
  let main_v25 : FVec F S32x768 .f32 := broadcastInDim S32x768 ![] bcast_S_S32x768 main_cst_8
  let main_v26 : IVec S32x768 1 := cmpf .olt main_v24 main_v25
  let main_c_9 : IVec S_ 1 := constantI S_ 1 1#1
  let main_v27 : IVec S_ 1 := (fun x v => Host.reduce IntOp.andi x v reducesTo_S32x768_S_d0_1 h_S_) main_v26 main_c_9
  let main_v28 : IVec S_ 1 := andi main_v23 main_v27
  let main_v29 : FVec F S32x768 .f32 := Host.absf main_arg6
  let main_cst_10 : FVec F S_ .f32 := constant S_ .f32 0x7F800000#32
  let main_v30 : FVec F S32x768 .f32 := broadcastInDim S32x768 ![] bcast_S_S32x768 main_cst_10
  let main_v31 : IVec S32x768 1 := cmpf .olt main_v29 main_v30
  let main_c_11 : IVec S_ 1 := constantI S_ 1 1#1
  let main_v32 : IVec S_ 1 := (fun x v => Host.reduce IntOp.andi x v reducesTo_S32x768_S_d0_1 h_S_) main_v31 main_c_11
  let main_v33 : IVec S_ 1 := andi main_v28 main_v32
  main_v33

def fn {F : FTy → Type} [FloatOps F] (main_arg0 : FVec F S16x3x512x512 .f32) (main_arg1 : FVec F S768 .f32) (main_arg2 : FVec F S768x768 .f32) (main_arg3 : FVec F S768 .f32) (main_arg4 : FVec F S768 .f32) (main_arg5 : FVec F S32x768 .f32) (main_arg6 : FVec F S32x768 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S16x3x512x512 : Shape := ⟨4, ![16, 3, 512, 512]⟩
abbrev S768 : Shape := ⟨1, ![768]⟩
abbrev S768x768 : Shape := ⟨2, ![768, 768]⟩
abbrev S32x768 : Shape := ⟨2, ![32, 768]⟩
abbrev S1x768 : Shape := ⟨2, ![1, 768]⟩
abbrev S4x3x512x512 : Shape := ⟨4, ![4, 3, 512, 512]⟩
abbrev S4x3x32x16x32x16 : Shape := ⟨6, ![4, 3, 32, 16, 32, 16]⟩
abbrev S4x32x32x3x16x16 : Shape := ⟨6, ![4, 32, 32, 3, 16, 16]⟩
abbrev S4x1024x768 : Shape := ⟨3, ![4, 1024, 768]⟩
abbrev S1x512x768 : Shape := ⟨3, ![1, 512, 768]⟩
abbrev S16x768 : Shape := ⟨2, ![16, 768]⟩
abbrev S512x768 : Shape := ⟨2, ![512, 768]⟩
abbrev S512 : Shape := ⟨1, ![512]⟩
abbrev S512x1 : Shape := ⟨2, ![512, 1]⟩
abbrev S16x1x768 : Shape := ⟨3, ![16, 1, 768]⟩
abbrev S1x32x768 : Shape := ⟨3, ![1, 32, 768]⟩
abbrev S16x32x768 : Shape := ⟨3, ![16, 32, 768]⟩
abbrev S16x1024x768 : Shape := ⟨3, ![16, 1024, 768]⟩

abbrev nBuf : Space → Nat
  | .hbm => 35
  | .vmem => 40
  | .smem => 0
  | _ => 0

abbrev bufTy : (tb : Table) → Fin (tcTables nBuf tb) → BufTy
  | .hbm, ⟨0, _⟩ => ⟨S16x3x512x512, .f32⟩
  | .hbm, ⟨1, _⟩ => ⟨S768, .f32⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S32x768, .f32⟩
  | .hbm, ⟨6, _⟩ => ⟨S32x768, .f32⟩
  | .hbm, ⟨7, _⟩ => ⟨S1x768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x768, .bf16⟩
  | .hbm, ⟨12, _⟩ => ⟨S1x768, .f32⟩
  | .hbm, ⟨13, _⟩ => ⟨S1x768, .f32⟩
  | .hbm, ⟨14, _⟩ => ⟨S4x3x512x512, .f32⟩
  | .hbm, ⟨15, _⟩ => ⟨S4x3x32x16x32x16, .f32⟩
  | .hbm, ⟨16, _⟩ => ⟨S4x32x32x3x16x16, .f32⟩
  | .hbm, ⟨17, _⟩ => ⟨S4x1024x768, .f32⟩
  | .hbm, ⟨18, _⟩ => ⟨S4x1024x768, .f32⟩
  | .hbm, ⟨19, _⟩ => ⟨S4x3x512x512, .f32⟩
  | .hbm, ⟨20, _⟩ => ⟨S4x3x32x16x32x16, .f32⟩
  | .hbm, ⟨21, _⟩ => ⟨S4x32x32x3x16x16, .f32⟩
  | .hbm, ⟨22, _⟩ => ⟨S4x1024x768, .f32⟩
  | .hbm, ⟨23, _⟩ => ⟨S4x1024x768, .f32⟩
  | .hbm, ⟨24, _⟩ => ⟨S4x3x512x512, .f32⟩
  | .hbm, ⟨25, _⟩ => ⟨S4x3x32x16x32x16, .f32⟩
  | .hbm, ⟨26, _⟩ => ⟨S4x32x32x3x16x16, .f32⟩
  | .hbm, ⟨27, _⟩ => ⟨S4x1024x768, .f32⟩
  | .hbm, ⟨28, _⟩ => ⟨S4x1024x768, .f32⟩
  | .hbm, ⟨29, _⟩ => ⟨S4x3x512x512, .f32⟩
  | .hbm, ⟨30, _⟩ => ⟨S4x3x32x16x32x16, .f32⟩
  | .hbm, ⟨31, _⟩ => ⟨S4x32x32x3x16x16, .f32⟩
  | .hbm, ⟨32, _⟩ => ⟨S4x1024x768, .f32⟩
  | .hbm, ⟨33, _⟩ => ⟨S4x1024x768, .f32⟩
  | .hbm, ⟨34, _⟩ => ⟨S16x1024x768, .f32⟩
  | .local _ .vmem, ⟨0, _⟩ => ⟨S1x512x768, .f32⟩
  | .local _ .vmem, ⟨1, _⟩ => ⟨S1x512x768, .f32⟩
  | .local _ .vmem, ⟨2, _⟩ => ⟨S768x768, .bf16⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | .local _ .vmem, ⟨7, _⟩ => ⟨S32x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S768x768, .bf16⟩
  | .local _ .vmem, ⟨13, _⟩ => ⟨S1x768, .f32⟩
  | .local _ .vmem, ⟨14, _⟩ => ⟨S1x768, .f32⟩
  | .local _ .vmem, ⟨15, _⟩ => ⟨S16x768, .f32⟩
  | .local _ .vmem, ⟨16, _⟩ => ⟨S16x768, .f32⟩
  | .local _ .vmem, ⟨17, _⟩ => ⟨S32x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x768, .f32⟩
  | .local _ .vmem, ⟨22, _⟩ => ⟨S768x768, .bf16⟩
  | .local _ .vmem, ⟨23, _⟩ => ⟨S1x768, .f32⟩
  | .local _ .vmem, ⟨24, _⟩ => ⟨S1x768, .f32⟩
  | .local _ .vmem, ⟨25, _⟩ => ⟨S16x768, .f32⟩
  | .local _ .vmem, ⟨26, _⟩ => ⟨S16x768, .f32⟩
  | .local _ .vmem, ⟨27, _⟩ => ⟨S32x768, .f32⟩
  | .local _ .vmem, ⟨28, _⟩ => ⟨S1x512x768, .f32⟩
  | .local _ .vmem, ⟨29, _⟩ => ⟨S1x512x768, .f32⟩
  | .local _ .vmem, ⟨30, _⟩ => ⟨S1x512x768, .f32⟩
  | .local _ .vmem, ⟨31, _⟩ => ⟨S1x512x768, .f32⟩
  | .local _ .vmem, ⟨32, _⟩ => ⟨S768x768, .bf16⟩
  | .local _ .vmem, ⟨33, _⟩ => ⟨S1x768, .f32⟩
  | .local _ .vmem, ⟨34, _⟩ => ⟨S1x768, .f32⟩
  | .local _ .vmem, ⟨35, _⟩ => ⟨S16x768, .f32⟩
  | .local _ .vmem, ⟨36, _⟩ => ⟨S16x768, .f32⟩
  | .local _ .vmem, ⟨37, _⟩ => ⟨S32x768, .f32⟩
  | .local _ .vmem, ⟨38, _⟩ => ⟨S1x512x768, .f32⟩
  | .local _ .vmem, ⟨39, _⟩ => ⟨S1x512x768, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem4_1 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S16x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S32x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S16x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S32x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S768x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S16x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 1 → Memref sig .tc .vmem S32x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x512x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

class Facts₀ : Prop where
  bcast_S768_S1x768_1 : S768.BroadcastsInDim S1x768 (![1] : Fin 1 → Fin S1x768.rank)
  bcast_S1x768_S768x768_0_1 : S1x768.BroadcastsInDim S768x768 (![0, 1] : Fin 2 → Fin S768x768.rank)
  transposes_S768x768_S768x768_1_0 : S768x768.Transposes [1, 0] S768x768
  bitsLt_bf16_f32 : FTy.bits .bf16 < FTy.bits .f32
  shapeCasts_S768_S1x768 : S768.ShapeCasts S1x768
  slices_S16x3x512x512_S4x3x512x512_0_0_0_0 : S16x3x512x512.Slices ![0, 0, 0, 0] S4x3x512x512
  shapeCasts_S4x3x512x512_S4x3x32x16x32x16 : S4x3x512x512.ShapeCasts S4x3x32x16x32x16
  transposes_S4x3x32x16x32x16_S4x32x32x3x16x16_0_2_4_1_3_5 : S4x3x32x16x32x16.Transposes [0, 2, 4, 1, 3, 5] S4x32x32x3x16x16
  shapeCasts_S4x32x32x3x16x16_S4x1024x768 : S4x32x32x3x16x16.ShapeCasts S4x1024x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S768 : S1x768.ShapeCasts S768
  broadcasts_S1x768_S512x768 : S1x768.Broadcasts S512x768
  inb_S16x768_S16x768_0_0 : ∀ a, (![0, 0] : Fin 2 → Nat) a + S16x768.size a ≤ S16x768.size a
  h_S16x768 : 0 < S16x768.numel
  shapeCasts_S16x768_S16x1x768 : S16x768.ShapeCasts S16x1x768
  inb_S32x768_S32x768_0_0 : ∀ a, (![0, 0] : Fin 2 → Nat) a + S32x768.size a ≤ S32x768.size a
  h_S32x768 : 0 < S32x768.numel
  shapeCasts_S32x768_S1x32x768 : S32x768.ShapeCasts S1x32x768
  broadcasts_S16x1x768_S16x32x768 : S16x1x768.Broadcasts S16x32x768
  broadcasts_S1x32x768_S16x32x768 : S1x32x768.Broadcasts S16x32x768
  shapeCasts_S16x32x768_S512x768 : S16x32x768.ShapeCasts S512x768
  shapeCasts_S512x768_S1x512x768 : S512x768.ShapeCasts S1x512x768
  slices_S16x3x512x512_S4x3x512x512_4_0_0_0 : S16x3x512x512.Slices ![4, 0, 0, 0] S4x3x512x512
  slices_S16x3x512x512_S4x3x512x512_8_0_0_0 : S16x3x512x512.Slices ![8, 0, 0, 0] S4x3x512x512
  slices_S16x3x512x512_S4x3x512x512_12_0_0_0 : S16x3x512x512.Slices ![12, 0, 0, 0] S4x3x512x512
  concatenates_S4x1024x768_S4x1024x768_S4x1024x768_S4x1024x768_S16x1024x768_d0 : Shape.Concatenates [S4x1024x768, S4x1024x768, S4x1024x768, S4x1024x768] S16x1024x768 0
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x1024x768.size a
  hwx0_0 : ∀ i : grid0.Coords, EltTy.bits .f32 = 32 ∨ (Rect.block (s := S4x1024x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x768.size a ≤ S32x768.size a
  hwx0_4 : ∀ i : grid0.Coords, EltTy.bits .f32 = 32 ∨ (Rect.block (s := S32x768) S16x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x768.size a ≤ S32x768.size a
  hwx0_5 : ∀ i : grid0.Coords, EltTy.bits .f32 = 32 ∨ (Rect.block (s := S32x768) S32x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x768.size a ≤ S4x1024x768.size a
  hwx0_6 : ∀ i : grid0.Coords, EltTy.bits .f32 = 32 ∨ (Rect.block (s := S4x1024x768) S1x512x768.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S4x1024x768.size a
  hwx1_0 : ∀ i : grid1.Coords, EltTy.bits .f32 = 32 ∨ (Rect.block (s := S4x1024x768) S1x512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x768.size a ≤ S32x768.size a
  hwx1_4 : ∀ i : grid1.Coords, EltTy.bits .f32 = 32 ∨ (Rect.block (s := S32x768) S16x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x768.size a ≤ S32x768.size a
  hwx1_5 : ∀ i : grid1.Coords, EltTy.bits .f32 = 32 ∨ (Rect.block (s := S32x768) S32x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x768.size a ≤ S4x1024x768.size a
  hwx1_6 : ∀ i : grid1.Coords, EltTy.bits .f32 = 32 ∨ (Rect.block (s := S4x1024x768) S1x512x768.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x768.size a ≤ S4x1024x768.size a
  hwx2_0 : ∀ i : grid2.Coords, EltTy.bits .f32 = 32 ∨ (Rect.block (s := S4x1024x768) S1x512x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x768.size a ≤ S32x768.size a
  hwx2_4 : ∀ i : grid2.Coords, EltTy.bits .f32 = 32 ∨ (Rect.block (s := S32x768) S16x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x768.size a ≤ S32x768.size a
  hwx2_5 : ∀ i : grid2.Coords, EltTy.bits .f32 = 32 ∨ (Rect.block (s := S32x768) S32x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x768.size a ≤ S4x1024x768.size a
  hwx2_6 : ∀ i : grid2.Coords, EltTy.bits .f32 = 32 ∨ (Rect.block (s := S4x1024x768) S1x512x768.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x768.size a ≤ S4x1024x768.size a
  hwx3_0 : ∀ i : grid3.Coords, EltTy.bits .f32 = 32 ∨ (Rect.block (s := S4x1024x768) S1x512x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x768.size a ≤ S768x768.size a
  hwx3_1 : ∀ i : grid3.Coords, EltTy.bits .bf16 = 32 ∨ (Rect.block (s := S768x768) S768x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x768.size a ≤ S1x768.size a
  hwx3_3 : ∀ i : grid3.Coords, EltTy.bits .f32 = 32 ∨ (Rect.block (s := S1x768) S1x768.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16x768.size a ≤ S32x768.size a
  hwx3_4 : ∀ i : grid3.Coords, EltTy.bits .f32 = 32 ∨ (Rect.block (s := S32x768) S16x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x768.size a ≤ S32x768.size a
  hwx3_5 : ∀ i : grid3.Coords, EltTy.bits .f32 = 32 ∨ (Rect.block (s := S32x768) S32x768.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x512x768.size a ≤ S4x1024x768.size a
  hwx3_6 : ∀ i : grid3.Coords, EltTy.bits .f32 = 32 ∨ (Rect.block (s := S4x1024x768) S1x512x768.size (cc3_transform_6 i) (hinb3_6 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v10) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x768.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x512x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S1x512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S16x768.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S32x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x512x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v25) S1x512x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S768x768.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S16x768.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S32x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S1x512x768.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16x3x512x512 : Shape := ⟨4, ![16, 3, 512, 512]⟩
abbrev S768 : Shape := ⟨1, ![768]⟩
abbrev S768x768 : Shape := ⟨2, ![768, 768]⟩
abbrev S32x768 : Shape := ⟨2, ![32, 768]⟩
abbrev S16x3x32x16x32x16 : Shape := ⟨6, ![16, 3, 32, 16, 32, 16]⟩
abbrev S16x32x32x3x16x16 : Shape := ⟨6, ![16, 32, 32, 3, 16, 16]⟩
abbrev S16x32x32x768 : Shape := ⟨4, ![16, 32, 32, 768]⟩
abbrev S16384x768 : Shape := ⟨2, ![16384, 768]⟩
abbrev S32 : Shape := ⟨1, ![32]⟩
abbrev S32x32 : Shape := ⟨2, ![32, 32]⟩
abbrev S1024 : Shape := ⟨1, ![1024]⟩
abbrev S1x1024 : Shape := ⟨2, ![1, 1024]⟩
abbrev S16x1024 : Shape := ⟨2, ![16, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1x768 : Shape := ⟨2, ![1, 768]⟩
abbrev S16x1024x768 : Shape := ⟨3, ![16, 1024, 768]⟩

abbrev nBuf : Space → Nat
  | .hbm => 159
  | .vmem => 0
  | .smem => 0
  | _ => 0

abbrev hbmTy0_0 (i : Nat) : BufTy := match i % 128 with
  | 0 => ⟨S16x3x512x512, .f32⟩
  | 1 => ⟨S768, .f32⟩
  | 2 => ⟨S768x768, .f32⟩
  | 3 => ⟨S768, .f32⟩
  | 4 => ⟨S768, .f32⟩
  | 5 => ⟨S32x768, .f32⟩
  | 6 => ⟨S32x768, .f32⟩
  | 7 => ⟨S16x3x32x16x32x16, .f32⟩
  | 8 => ⟨S16x32x32x3x16x16, .f32⟩
  | 9 => ⟨S16x32x32x768, .f32⟩
  | 10 => ⟨S16384x768, .f32⟩
  | 11 => ⟨S32, .i32⟩
  | 12 => ⟨S32, .i32⟩
  | 13 => ⟨S32x32, .i32⟩
  | 14 => ⟨S32x32, .i32⟩
  | 15 => ⟨S1024, .i32⟩
  | 16 => ⟨S1x1024, .i32⟩
  | 17 => ⟨S16x1024, .i32⟩
  | 18 => ⟨S16384, .i32⟩
  | 19 => ⟨S1024, .i32⟩
  | 20 => ⟨S1x1024, .i32⟩
  | 21 => ⟨S16x1024, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S1, .i32⟩
  | 32 => ⟨S_, .i32⟩
  | 33 => ⟨S16384x1, .i32⟩
  | 34 => ⟨S16384x1, .i1⟩
  | 35 => ⟨S1x1, .i32⟩
  | 36 => ⟨S16384x1, .i32⟩
  | 37 => ⟨S16384x1, .i1⟩
  | 38 => ⟨S16384x1, .i1⟩
  | 39 => ⟨S_, .i1⟩
  | 40 => ⟨S16384, .i1⟩
  | 41 => ⟨S16384x768, .f32⟩
  | 42 => ⟨S16384x768, .i1⟩
  | 43 => ⟨S_, .f32⟩
  | 44 => ⟨S16384x768, .f32⟩
  | 45 => ⟨S16384x768, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S1, .i32⟩
  | 55 => ⟨S_, .i32⟩
  | 56 => ⟨S16384x1, .i32⟩
  | 57 => ⟨S16384x1, .i1⟩
  | 58 => ⟨S1x1, .i32⟩
  | 59 => ⟨S16384x1, .i32⟩
  | 60 => ⟨S16384x1, .i1⟩
  | 61 => ⟨S16384x1, .i1⟩
  | 62 => ⟨S_, .i1⟩
  | 63 => ⟨S16384, .i1⟩
  | 64 => ⟨S16384x768, .f32⟩
  | 65 => ⟨S16384x768, .i1⟩
  | 66 => ⟨S_, .f32⟩
  | 67 => ⟨S16384x768, .f32⟩
  | 68 => ⟨S16384x768, .f32⟩
  | 69 => ⟨S16384x768, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S_, .i32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x768, .f32⟩
  | 84 => ⟨S16384x768, .f32⟩
  | 85 => ⟨S16384x768, .f32⟩
  | 86 => ⟨S_, .f32⟩
  | 87 => ⟨S_, .f32⟩
  | 88 => ⟨S_, .f32⟩
  | 89 => ⟨S_, .f32⟩
  | 90 => ⟨S16384, .f32⟩
  | 91 => ⟨S16384x1, .f32⟩
  | 92 => ⟨S16384x1, .f32⟩
  | 93 => ⟨S16384x1, .f32⟩
  | 94 => ⟨S_, .f32⟩
  | 95 => ⟨S_, .i1⟩
  | 96 => ⟨S_, .f32⟩
  | 97 => ⟨S_, .f32⟩
  | 98 => ⟨S16384x1, .f32⟩
  | 99 => ⟨S16384x1, .f32⟩
  | 100 => ⟨S16384x768, .f32⟩
  | 101 => ⟨S16384x768, .f32⟩
  | 102 => ⟨S_, .f32⟩
  | 103 => ⟨S16384x1, .f32⟩
  | 104 => ⟨S16384x1, .f32⟩
  | 105 => ⟨S16384x1, .f32⟩
  | 106 => ⟨S16384x768, .f32⟩
  | 107 => ⟨S16384x768, .f32⟩
  | 108 => ⟨S1x768, .f32⟩
  | 109 => ⟨S16384x768, .f32⟩
  | 110 => ⟨S16384x768, .f32⟩
  | 111 => ⟨S768x768, .f32⟩
  | 112 => ⟨S16384x768, .f32⟩
  | 113 => ⟨S1x768, .f32⟩
  | 114 => ⟨S16384x768, .f32⟩
  | 115 => ⟨S16384x768, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S_, .i32⟩
  | 123 => ⟨S_, .f32⟩
  | 124 => ⟨S16384, .f32⟩
  | 125 => ⟨S16384x1, .f32⟩
  | 126 => ⟨S_, .f32⟩
  | 127 => ⟨S16384x1, .f32⟩
  | _ => ⟨S16x3x512x512, .f32⟩

abbrev hbmTy0_1 (i : Nat) : BufTy := match i % 128 with
  | 0 => ⟨S16384x1, .f32⟩
  | 1 => ⟨S16384x768, .f32⟩
  | 2 => ⟨S16384x768, .f32⟩
  | 3 => ⟨S16384x768, .f32⟩
  | 4 => ⟨S_, .f32⟩
  | 5 => ⟨S_, .f32⟩
  | 6 => ⟨S_, .f32⟩
  | 7 => ⟨S_, .f32⟩
  | 8 => ⟨S16384, .f32⟩
  | 9 => ⟨S16384x1, .f32⟩
  | 10 => ⟨S16384x1, .f32⟩
  | 11 => ⟨S16384x1, .f32⟩
  | 12 => ⟨S_, .f32⟩
  | 13 => ⟨S_, .i1⟩
  | 14 => ⟨S_, .f32⟩
  | 15 => ⟨S_, .f32⟩
  | 16 => ⟨S16384x1, .f32⟩
  | 17 => ⟨S16384x1, .f32⟩
  | 18 => ⟨S16384x768, .f32⟩
  | 19 => ⟨S16384x768, .f32⟩
  | 20 => ⟨S_, .f32⟩
  | 21 => ⟨S16384x1, .f32⟩
  | 22 => ⟨S16384x1, .f32⟩
  | 23 => ⟨S16384x1, .f32⟩
  | 24 => ⟨S16384x768, .f32⟩
  | 25 => ⟨S16384x768, .f32⟩
  | 26 => ⟨S1x768, .f32⟩
  | 27 => ⟨S16384x768, .f32⟩
  | 28 => ⟨S16384x768, .f32⟩
  | 29 => ⟨S16384x768, .f32⟩
  | 30 => ⟨S16x1024x768, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v17 : Ref sig .tc := ⟨.hbm, 68, rfl⟩
abbrev main_v18 : Ref sig .tc := ⟨.hbm, 69, rfl⟩
abbrev main_cst : Ref sig .tc := ⟨.hbm, 70, rfl⟩
abbrev main_v19 : Ref sig .tc := ⟨.hbm, 71, rfl⟩
abbrev main_v20 : Ref sig .tc := ⟨.hbm, 72, rfl⟩
abbrev main_cst_0 : Ref sig .tc := ⟨.hbm, 73, rfl⟩
abbrev main_v21 : Ref sig .tc := ⟨.hbm, 74, rfl⟩
abbrev main_v22 : Ref sig .tc := ⟨.hbm, 75, rfl⟩
abbrev main_c : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_cst_3 : Ref sig .tc := ⟨.hbm, 94, rfl⟩
abbrev main_call2_v13 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_cst_1 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_2 : Ref sig .tc := ⟨.hbm, 116, rfl⟩
abbrev main_v39 : Ref sig .tc := ⟨.hbm, 117, rfl⟩
abbrev main_v40 : Ref sig .tc := ⟨.hbm, 118, rfl⟩
abbrev main_cst_3 : Ref sig .tc := ⟨.hbm, 119, rfl⟩
abbrev main_v41 : Ref sig .tc := ⟨.hbm, 120, rfl⟩
abbrev main_v42 : Ref sig .tc := ⟨.hbm, 121, rfl⟩
abbrev main_c_4 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_cst_1 : Ref sig .tc := ⟨.hbm, 133, rfl⟩
abbrev main_call3_v8 : Ref sig .tc := ⟨.hbm, 134, rfl⟩
abbrev main_call3_cst_2 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_v12 : Ref sig .tc := ⟨.hbm, 139, rfl⟩
abbrev main_call3_cst_3 : Ref sig .tc := ⟨.hbm, 140, rfl⟩
abbrev main_call3_v13 : Ref sig .tc := ⟨.hbm, 141, rfl⟩
abbrev main_call3_cst_4 : Ref sig .tc := ⟨.hbm, 142, rfl⟩
abbrev main_call3_call0_v0 : Ref sig .tc := ⟨.hbm, 143, rfl⟩
abbrev main_call3_call0_v1 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_cst_5 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩

abbrev nD : Nat := 1
abbrev τ : Topo := Topo.v7x

variable {F : FTy → Type} [FloatOps F]

class Facts₀ : Prop where
  shapeCasts_S16x3x512x512_S16x3x32x16x32x16 : S16x3x512x512.ShapeCasts S16x3x32x16x32x16
  transposes_S16x3x32x16x32x16_S16x32x32x3x16x16_0_2_4_1_3_5 : S16x3x32x16x32x16.Transposes [0, 2, 4, 1, 3, 5] S16x32x32x3x16x16
  shapeCasts_S16x32x32x3x16x16_S16x32x32x768 : S16x32x32x3x16x16.ShapeCasts S16x32x32x768
  shapeCasts_S16x32x32x768_S16384x768 : S16x32x32x768.ShapeCasts S16384x768
  bcast_S32_S32x32_0 : S32.BroadcastsInDim S32x32 (![0] : Fin 1 → Fin S32x32.rank)
  bcast_S32_S32x32_1 : S32.BroadcastsInDim S32x32 (![1] : Fin 1 → Fin S32x32.rank)
  shapeCasts_S32x32_S1024 : S32x32.ShapeCasts S1024
  shapeCasts_S1024_S1x1024 : S1024.ShapeCasts S1x1024
  bcast_S1x1024_S16x1024_0_1 : S1x1024.BroadcastsInDim S16x1024 (![0, 1] : Fin 2 → Fin S16x1024.rank)
  shapeCasts_S16x1024_S16384 : S16x1024.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x768_0 : S16384.BroadcastsInDim S16384x768 (![0] : Fin 1 → Fin S16384x768.rank)
  bcast_S_S16384x768 : S_.BroadcastsInDim S16384x768 (![] : Fin 0 → Fin S16384x768.rank)
  reducesTo_S16384x768_S16384_d1 : S16384x768.ReducesTo [1] S16384
  bcast_S16384x1_S16384x768_0_1 : S16384x1.BroadcastsInDim S16384x768 (![0, 1] : Fin 2 → Fin S16384x768.rank)
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  transposes_S768x768_S768x768_1_0 : S768x768.Transposes [1, 0] S768x768
  shapeCasts_S16384x768_S16x1024x768 : S16384x768.ShapeCasts S16x1024x768
  gather_S32x768_S16384x1_S16384x768_1_0_n_n_0_1_1768_wf : GatherDims.WF S32x768 S16384x1 S16384x768 [1] [0] [] [0] [] 1 ![1, 768]
  dot_S16384x768_S768x768_S16384x768_1_0_0_1_n_n_wf : DotDims.WF S16384x768 S768x768 S16384x768 [1] [0] [0] [1] [] []

variable [Facts₀]

def gather_S32x768_S16384x1_S16384x768_1_0_n_n_0_1_1768 : GatherDims S32x768 S16384x1 S16384x768 where
  offsetDims := [1]
  collapsedSliceDims := [0]
  operandBatchingDims := []
  startIndicesBatchingDims := []
  startIndexMap := [0]
  indexVectorDim := 1
  sliceSizes := ![1, 768]
  wf := gather_S32x768_S16384x1_S16384x768_1_0_n_n_0_1_1768_wf
def dot_S16384x768_S768x768_S16384x768_1_0_0_1_n_n : DotDims S16384x768 S768x768 S16384x768 where
  lhsContracting := [1]
  rhsContracting := [0]
  lhsNonContracting := [0]
  rhsNonContracting := [1]
  lhsBatch := []
  rhsBatch := []
  wf := dot_S16384x768_S768x768_S16384x768_1_0_0_1_n_n_wf

class Facts : Prop extends Facts₀ where

variable [Facts]
-- ==== Proof.KB.Region0.lean ====
import proofs.«111676_g55894704390624_cont_9to1_m_944_13_alg».proof.Proof.Gen.Kernel.Launch
import proofs.«111676_g55894704390624_cont_9to1_m_944_13_alg».proof.Proof.Gen.Kernel.Skeleton
import proofs.«111676_g55894704390624_cont_9to1_m_944_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_tok : Rect S1x512x768 := Rect.unit (s := S1x512x768) ![0, 0, 0] S1x512x768.size inb_S1x512x768_S1x512x768_0_0_0
abbrev r0_w : Rect S768x768 := Rect.unit (s := S768x768) ![0, 0] S768x768.size inb_S768x768_S768x768_0_0
abbrev r0_row : Rect S1x768 := Rect.unit (s := S1x768) ![0, 0] S1x768.size inb_S1x768_S1x768_0_0
abbrev r0_ph : Rect S16x768 := Rect.unit (s := S16x768) ![0, 0] S16x768.size inb_S16x768_S16x768_0_0
abbrev r0_pw : Rect S32x768 := Rect.unit (s := S32x768) ![0, 0] S32x768.size inb_S32x768_S32x768_0_0

def out0_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r0_tok, k0_pay1 (k0_pay2 (View.ld x0 r0_tok) (View.ld x1 r0_w) (View.ld x2 r0_row))
    (k0_pay3 (View.ld x0 r0_tok) (View.ld x1 r0_w) (View.ld x2 r0_row))
    (k0_pay4 (View.ld x0 r0_tok) (View.ld x1 r0_w) (View.ld x2 r0_row))
    (View.ld x4 r0_ph) (View.ld x5 r0_pw) (View.ld x3 r0_row)⟩]

theorem cover0_6 (p0 : Vec F S1x512x768 .f32) (y : S1x512x768.Idx) :
    ∃ pc ∈ ([⟨r0_tok, p0⟩] : List (View.Piece (Elt F) S1x512x768 .f32)), y ∈ pc.1.set :=
  View.cover_of_tiled [⟨r0_tok, p0⟩] S1x512x768.size (by rfl) y

set_option maxHeartbeats 4000000 in

theorem sound_kernel0 (c : Dev nD) (E : Set ℕ) (i : grid0.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__embed_kernel i arg2 harg2 arg3 harg3 arg4 harg4 arg5 harg5 arg6 harg6 arg7 harg7 arg8 harg8) K := by
  simp only [cc0__embed_kernel_eq_skeleton]; unfold cc0__embed_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;> intro d <;>
    exact ((dat0 V c).before_in_eq_fetched _ rfl (fun _ => rfl) (fun _ _ _ => rfl)
      (fun t => by dsimp only [dat0]; unfold Dat.blockOf iblk0; try rfl) t d).trans
      (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have h := before0 V c t
  simp only [h.1, h.2.1, h.2.2.1, h.2.2.2.1, h.2.2.2.2.1, h.2.2.2.2.2]
  rw [show (dat0 V c).Φ t.succ = (dat0 V c).Φ t.castSucc from rfl,
    show (dat0 V c).owesAt () t.succ = (dat0 V c).owesAt () t.castSucc from rfl]
  generalize (dat0 V c).owesAt () t.castSucc = O
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«111676_g55894704390624_cont_9to1_m_944_13_alg».proof.Proof.Gen.Kernel.Launch
import proofs.«111676_g55894704390624_cont_9to1_m_944_13_alg».proof.Proof.Gen.Kernel.Skeleton
import proofs.«111676_g55894704390624_cont_9to1_m_944_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_tok : Rect S1x512x768 := Rect.unit (s := S1x512x768) ![0, 0, 0] S1x512x768.size inb_S1x512x768_S1x512x768_0_0_0
abbrev r1_w : Rect S768x768 := Rect.unit (s := S768x768) ![0, 0] S768x768.size inb_S768x768_S768x768_0_0
abbrev r1_row : Rect S1x768 := Rect.unit (s := S1x768) ![0, 0] S1x768.size inb_S1x768_S1x768_0_0
abbrev r1_ph : Rect S16x768 := Rect.unit (s := S16x768) ![0, 0] S16x768.size inb_S16x768_S16x768_0_0
abbrev r1_pw : Rect S32x768 := Rect.unit (s := S32x768) ![0, 0] S32x768.size inb_S32x768_S32x768_0_0

def out1_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r1_tok, k0_pay1 (k0_pay2 (View.ld x0 r1_tok) (View.ld x1 r1_w) (View.ld x2 r1_row))
    (k0_pay3 (View.ld x0 r1_tok) (View.ld x1 r1_w) (View.ld x2 r1_row))
    (k0_pay4 (View.ld x0 r1_tok) (View.ld x1 r1_w) (View.ld x2 r1_row))
    (View.ld x4 r1_ph) (View.ld x5 r1_pw) (View.ld x3 r1_row)⟩]

theorem cover1_6 (p0 : Vec F S1x512x768 .f32) (y : S1x512x768.Idx) :
    ∃ pc ∈ ([⟨r1_tok, p0⟩] : List (View.Piece (Elt F) S1x512x768 .f32)), y ∈ pc.1.set :=
  View.cover_of_tiled [⟨r1_tok, p0⟩] S1x512x768.size (by rfl) y

set_option maxHeartbeats 4000000 in

theorem sound_kernel1 (c : Dev nD) (E : Set ℕ) (i : grid1.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__embed_kernel i arg2 harg2 arg3 harg3 arg4 harg4 arg5 harg5 arg6 harg6 arg7 harg7 arg8 harg8) K := by
  simp only [cc1__embed_kernel_eq_skeleton]; unfold cc1__embed_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> intro d <;>
    exact ((dat1 V c).before_in_eq_fetched _ rfl (fun _ => rfl) (fun _ _ _ => rfl)
      (fun t => by dsimp only [dat1]; unfold Dat.blockOf iblk1; try rfl) t d).trans
      (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have h := before1 V c t
  simp only [h.1, h.2.1, h.2.2.1, h.2.2.2.1, h.2.2.2.2.1, h.2.2.2.2.2]
  rw [show (dat1 V c).Φ t.succ = (dat1 V c).Φ t.castSucc from rfl,
    show (dat1 V c).owesAt () t.succ = (dat1 V c).owesAt () t.castSucc from rfl]
  generalize (dat1 V c).owesAt () t.castSucc = O
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«111676_g55894704390624_cont_9to1_m_944_13_alg».proof.Proof.Gen.Kernel.Launch
import proofs.«111676_g55894704390624_cont_9to1_m_944_13_alg».proof.Proof.Gen.Kernel.Skeleton
import proofs.«111676_g55894704390624_cont_9to1_m_944_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_tok : Rect S1x512x768 := Rect.unit (s := S1x512x768) ![0, 0, 0] S1x512x768.size inb_S1x512x768_S1x512x768_0_0_0
abbrev r2_w : Rect S768x768 := Rect.unit (s := S768x768) ![0, 0] S768x768.size inb_S768x768_S768x768_0_0
abbrev r2_row : Rect S1x768 := Rect.unit (s := S1x768) ![0, 0] S1x768.size inb_S1x768_S1x768_0_0
abbrev r2_ph : Rect S16x768 := Rect.unit (s := S16x768) ![0, 0] S16x768.size inb_S16x768_S16x768_0_0
abbrev r2_pw : Rect S32x768 := Rect.unit (s := S32x768) ![0, 0] S32x768.size inb_S32x768_S32x768_0_0

def out2_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r2_tok, k0_pay1 (k0_pay2 (View.ld x0 r2_tok) (View.ld x1 r2_w) (View.ld x2 r2_row))
    (k0_pay3 (View.ld x0 r2_tok) (View.ld x1 r2_w) (View.ld x2 r2_row))
    (k0_pay4 (View.ld x0 r2_tok) (View.ld x1 r2_w) (View.ld x2 r2_row))
    (View.ld x4 r2_ph) (View.ld x5 r2_pw) (View.ld x3 r2_row)⟩]

theorem cover2_6 (p0 : Vec F S1x512x768 .f32) (y : S1x512x768.Idx) :
    ∃ pc ∈ ([⟨r2_tok, p0⟩] : List (View.Piece (Elt F) S1x512x768 .f32)), y ∈ pc.1.set :=
  View.cover_of_tiled [⟨r2_tok, p0⟩] S1x512x768.size (by rfl) y

set_option maxHeartbeats 4000000 in

theorem sound_kernel2 (c : Dev nD) (E : Set ℕ) (i : grid2.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2_6 x0 x1 x2 x3 x4 x5)) -∗ K ⟨⟩))
      ⊢ wp frame (wpE (defs₀ (F := F)) Variants.none c none) E (cc2__embed_kernel i arg2 harg2 arg3 harg3 arg4 harg4 arg5 harg5 arg6 harg6 arg7 harg7 arg8 harg8) K := by
  simp only [cc2__embed_kernel_eq_skeleton]; unfold cc2__embed_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl)
      (fun t => by dsimp only [dat2]; unfold Dat.blockOf iblk2; try rfl) t d).trans
      (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have h := before2 V c t
  simp only [h.1, h.2.1, h.2.2.1, h.2.2.2.1, h.2.2.2.2.1, h.2.2.2.2.2]
  rw [show (dat2 V c).Φ t.succ = (dat2 V c).Φ t.castSucc from rfl,
    show (dat2 V c).owesAt () t.succ = (dat2 V c).owesAt () t.castSucc from rfl]
  generalize (dat2 V c).owesAt () t.castSucc = O
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Region3.lean ====
import proofs.«111676_g55894704390624_cont_9to1_m_944_13_alg».proof.Proof.Gen.Kernel.Launch
import proofs.«111676_g55894704390624_cont_9to1_m_944_13_alg».proof.Proof.Gen.Kernel.Skeleton
import proofs.«111676_g55894704390624_cont_9to1_m_944_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tok : Rect S1x512x768 := Rect.unit (s := S1x512x768) ![0, 0, 0] S1x512x768.size inb_S1x512x768_S1x512x768_0_0_0
abbrev r3_w : Rect S768x768 := Rect.unit (s := S768x768) ![0, 0] S768x768.size inb_S768x768_S768x768_0_0
abbrev r3_row : Rect S1x768 := Rect.unit (s := S1x768) ![0, 0] S1x768.size inb_S1x768_S1x768_0_0
abbrev r3_ph : Rect S16x768 := Rect.unit (s := S16x768) ![0, 0] S16x768.size inb_S16x768_S16x768_0_0
abbrev r3_pw : Rect S32x768 := Rect.unit (s := S32x768) ![0, 0] S32x768.size inb_S32x768_S32x768_0_0

def out3_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r3_tok, k0_pay1 (k0_pay2 (View.ld x0 r3_tok) (View.ld x1 r3_w) (View.ld x2 r3_row))
    (k0_pay3 (View.ld x0 r3_tok) (View.ld x1 r3_w) (View.ld x2 r3_row))
    (k0_pay4 (View.ld x0 r3_tok) (View.ld x1 r3_w) (View.ld x2 r3_row))
    (View.ld x4 r3_ph) (View.ld x5 r3_pw) (View.ld x3 r3_row)⟩]

theorem cover3_6 (p0 : Vec F S1x512x768 .f32) (y : S1x512x768.Idx) :
    ∃ pc ∈ ([⟨r3_tok, p0⟩] : List (View.Piece (Elt F) S1x512x768 .f32)), y ∈ pc.1.set :=
  View.cover_of_tiled [⟨r3_tok, p0⟩] S1x512x768.size (by rfl) y

set_option maxHeartbeats 4000000 in

theorem sound_kernel3 (c : Dev nD) (E : Set ℕ) (i : grid3.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5)) -∗ K ⟨⟩))
      ⊢ wp frame (wpE (defs₀ (F := F)) Variants.none c none) E (cc3__embed_kernel i arg2 harg2 arg3 harg3 arg4 harg4 arg5 harg5 arg6 harg6 arg7 harg7 arg8 harg8) K := by
  simp only [cc3__embed_kernel_eq_skeleton]; unfold cc3__embed_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) ∧ (∀ d, (dat3 V c).before 5 t d = iblk3 V c 5 t) := by
  refine ⟨?_, ?_, ?_, ?_, ?_, ?_⟩ <;> intro d <;>
    exact ((dat3 V c).before_in_eq_fetched _ rfl (fun _ => rfl) (fun _ _ _ => rfl)
      (fun t => by dsimp only [dat3]; unfold Dat.blockOf iblk3; try rfl) t d).trans
      (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have h := before3 V c t
  simp only [h.1, h.2.1, h.2.2.1, h.2.2.2.1, h.2.2.2.2.1, h.2.2.2.2.2]
  rw [show (dat3 V c).Φ t.succ = (dat3 V c).Φ t.castSucc from rfl,
    show (dat3 V c).owesAt () t.succ = (dat3 V c).owesAt () t.castSucc from rfl]
  generalize (dat3 V c).owesAt () t.castSucc = O
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
import proofs.«111676_g55894704390624_cont_9to1_m_944_13_alg».proof.Proof.KB.Region0
import proofs.«111676_g55894704390624_cont_9to1_m_944_13_alg».proof.Proof.KB.Region1
import proofs.«111676_g55894704390624_cont_9to1_m_944_13_alg».proof.Proof.KB.Region2
import proofs.«111676_g55894704390624_cont_9to1_m_944_13_alg».proof.Proof.KB.Region3
import proofs.«111676_g55894704390624_cont_9to1_m_944_13_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_keep (c : Dev nD) (b : Ref sig .tc) (hb : b ≠ main_v11) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w
      ((by decide : ∀ w : Fin 7, Pipeline.arrRef spec0 w ≠ main_v11 → (cfg0.win w).isOut = false) w hb) _).trans (A_eq0 (V1 m ρ) c w))
  · exact W2_of_ne m ρ c b fun w e => h ⟨w, e⟩

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_keep (c : Dev nD) (b : Ref sig .tc) (hb : b ≠ main_v16) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w
      ((by decide : ∀ w : Fin 7, Pipeline.arrRef spec1 w ≠ main_v16 → (cfg1.win w).isOut = false) w hb) _).trans (A_eq1 (V3 m ρ) c w))
  · exact W4_of_ne m ρ c b fun w e => h ⟨w, e⟩

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_keep (c : Dev nD) (b : Ref sig .tc) (hb : b ≠ main_v21) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w
      ((by decide : ∀ w : Fin 7, Pipeline.arrRef spec2 w ≠ main_v21 → (cfg2.win w).isOut = false) w hb) _).trans (A_eq2 (V5 m ρ) c w))
  · exact W6_of_ne m ρ c b fun w e => h ⟨w, e⟩

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_keep (c : Dev nD) (b : Ref sig .tc) (hb : b ≠ main_v26) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w
      ((by decide : ∀ w : Fin 7, Pipeline.arrRef spec3 w ≠ main_v26 → (cfg3.win w).isOut = false) w hb) _).trans (A_eq3 (V7 m ρ) c w))
  · exact W8_of_ne m ρ c b fun w e => h ⟨w, e⟩

abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

theorem W9_kept (c : Dev nD) (b : Ref sig .tc)
    (h : b ∉ hostOps0_W ∧ b ∉ hostOps1_W ∧ b ∉ hostOps2_W ∧ b ∉ hostOps3_W ∧ b ∉ hostOps4_W
      ∧ b ≠ main_v11 ∧ b ≠ main_v16 ∧ b ≠ main_v21 ∧ b ≠ main_v26) :
    W9 m ρ c (Proc.devRef .tc b) = m ((c : Thread nD τ).loc b) :=
  (StableHlo.after_of_writes_sub hostOps4 _ hostOps4_writes h.2.2.2.2.1).trans <| (W8_keep m ρ c b h.2.2.2.2.2.2.2.2).trans <|
  (StableHlo.after_of_writes_sub hostOps3 _ hostOps3_writes h.2.2.2.1).trans <| (W6_keep m ρ c b h.2.2.2.2.2.2.2.1).trans <|
  (StableHlo.after_of_writes_sub hostOps2 _ hostOps2_writes h.2.2.1).trans <| (W4_keep m ρ c b h.2.2.2.2.2.2.1).trans <|
  (StableHlo.after_of_writes_sub hostOps1 _ hostOps1_writes h.2.1).trans <| (W2_keep m ρ c b h.2.2.2.2.2.1).trans <|
  (StableHlo.after_of_writes_sub hostOps0 _ hostOps0_writes h.1).trans rfl

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in

def regOf (p : Fin 4) (launch : Pipeline.LaunchFacts (nD := nD) (τ := τ) cfgs p) (Wi Wo : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hΦ : ∀ c j, (pdats m ρ p c).Φ j = Pipeline.ΦA (pcfgs (F := F) p).spec c)
    (hA : ∀ c w, (pdats m ρ p c).A w = Wi c (Pipeline.arrRef (pcfgs (F := F) p).spec w))
    (hF : ∀ c w, (pdats m ρ p c).arrAt w (Pipeline.pin (pcfgs (F := F)) adm p).N = Wo c (Pipeline.arrRef (pcfgs (F := F) p).spec w))
    (hrest : ∀ c (b : Ref sig .tc), b ∉ Finset.univ.image (Pipeline.arrRef (pcfgs (F := F) p).spec) → Wo c b = Wi c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    unfold Pipeline.Dat.owesAt Pipeline.owesWithin
    rw [howed c]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (fun _ _ => rfl) (fun _ _ => rfl)
    (fun _ _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (fun _ _ => rfl) (fun _ _ => rfl)
    (fun _ _ => rfl) (fun _ _ => rfl) (hF1 m ρ) (hrest1 m ρ)

set_option backward.isDefEq.respectTransparency.types false in
def reg2 : Pipeline.RegionSeg (pcfgs (F := F)) adm (pdats m ρ) () defs₀ 𝒱₀ L lv 2 :=
  regOf m ρ 2 launch2 (W5 m ρ) (W6 m ρ) (body_obligation2 (V5 m ρ)) (fun _ _ => rfl) (fun _ _ => rfl) (fun _ _ => rfl)
    (fun _ _ => rfl) (fun _ _ => rfl) (hF2 m ρ) (hrest2 m ρ)

set_option backward.isDefEq.respectTransparency.types false in
def reg3 : Pipeline.RegionSeg (pcfgs (F := F)) adm (pdats m ρ) () defs₀ 𝒱₀ L lv 3 :=
  regOf m ρ 3 launch3 (W7 m ρ) (W8 m ρ) (body_obligation3 (V7 m ρ)) (fun _ _ => rfl) (fun _ _ => rfl) (fun _ _ => rfl)
    (fun _ _ => rfl) (fun _ _ => rfl) (hF3 m ρ) (hrest3 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show _ ⊢ iprop(StableHlo.held (c : Thread nD τ) (Pipeline.ucRefs τ sig) (W9 m ρ c) ∗ R c) from .rfl).trans (by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

theorem run_value : θ_run defs (onTc (τ := τ) (main (F := F))) ⟨m, fun _ => 0, ρ⟩ (fun r => ∀ c : Dev nD,
      r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v27 (by decide)),
     (h c _ (mem_uc main_arg0 (by decide))).trans (W9_kept m ρ c main_arg0 (by decide)),
     (h c _ (mem_uc main_arg1 (by decide))).trans (W9_kept m ρ c main_arg1 (by decide)),
     (h c _ (mem_uc main_arg2 (by decide))).trans (W9_kept m ρ c main_arg2 (by decide)),
     (h c _ (mem_uc main_arg3 (by decide))).trans (W9_kept m ρ c main_arg3 (by decide)),
     (h c _ (mem_uc main_arg4 (by decide))).trans (W9_kept m ρ c main_arg4 (by decide)),
     (h c _ (mem_uc main_arg5 (by decide))).trans (W9_kept m ρ c main_arg5 (by decide)),
     (h c _ (mem_uc main_arg6 (by decide))).trans (W9_kept m ρ c main_arg6 (by decide))⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.Region0.lean ====
import proofs.«111676_g55894704390624_cont_9to1_m_944_13_alg».proof.Proof.Gen.KernelIdeal.Launch
import proofs.«111676_g55894704390624_cont_9to1_m_944_13_alg».proof.Proof.Gen.KernelIdeal.Skeleton
import proofs.«111676_g55894704390624_cont_9to1_m_944_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_tok : Rect S1x512x768 := Rect.unit (s := S1x512x768) ![0, 0, 0] S1x512x768.size inb_S1x512x768_S1x512x768_0_0_0
abbrev r0_w : Rect S768x768 := Rect.unit (s := S768x768) ![0, 0] S768x768.size inb_S768x768_S768x768_0_0
abbrev r0_row : Rect S1x768 := Rect.unit (s := S1x768) ![0, 0] S1x768.size inb_S1x768_S1x768_0_0
abbrev r0_ph : Rect S16x768 := Rect.unit (s := S16x768) ![0, 0] S16x768.size inb_S16x768_S16x768_0_0
abbrev r0_pw : Rect S32x768 := Rect.unit (s := S32x768) ![0, 0] S32x768.size inb_S32x768_S32x768_0_0

def out0_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r0_tok, k0_pay1 (k0_pay2 (View.ld x0 r0_tok) (View.ld x1 r0_w) (View.ld x2 r0_row))
    (k0_pay3 (View.ld x0 r0_tok) (View.ld x1 r0_w) (View.ld x2 r0_row))
    (k0_pay4 (View.ld x0 r0_tok) (View.ld x1 r0_w) (View.ld x2 r0_row))
    (View.ld x4 r0_ph) (View.ld x5 r0_pw) (View.ld x3 r0_row)⟩]

theorem cover0_6 (p0 : Vec F S1x512x768 .f32) (y : S1x512x768.Idx) :
    ∃ pc ∈ ([⟨r0_tok, p0⟩] : List (View.Piece (Elt F) S1x512x768 .f32)), y ∈ pc.1.set :=
  View.cover_of_tiled [⟨r0_tok, p0⟩] S1x512x768.size (by rfl) y

set_option maxHeartbeats 4000000 in

theorem sound_kernel0 (c : Dev nD) (E : Set ℕ) (i : grid0.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__embed_kernel i arg2 harg2 arg3 harg3 arg4 harg4 arg5 harg5 arg6 harg6 arg7 harg7 arg8 harg8) K := by
  simp only [cc0__embed_kernel_eq_skeleton]; unfold cc0__embed_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;> intro d <;>
    exact ((dat0 V c).before_in_eq_fetched _ rfl (fun _ => rfl) (fun _ _ _ => rfl)
      (fun t => by dsimp only [dat0]; unfold Dat.blockOf iblk0; try rfl) t d).trans
      (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  have h := before0 V c t
  simp only [h.1, h.2.1, h.2.2.1, h.2.2.2.1, h.2.2.2.2.1, h.2.2.2.2.2]
  rw [show (dat0 V c).Φ t.succ = (dat0 V c).Φ t.castSucc from rfl,
    show (dat0 V c).owesAt () t.succ = (dat0 V c).owesAt () t.castSucc from rfl]
  generalize (dat0 V c).owesAt () t.castSucc = O
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«111676_g55894704390624_cont_9to1_m_944_13_alg».proof.Proof.Gen.KernelIdeal.Launch
import proofs.«111676_g55894704390624_cont_9to1_m_944_13_alg».proof.Proof.Gen.KernelIdeal.Skeleton
import proofs.«111676_g55894704390624_cont_9to1_m_944_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_tok : Rect S1x512x768 := Rect.unit (s := S1x512x768) ![0, 0, 0] S1x512x768.size inb_S1x512x768_S1x512x768_0_0_0
abbrev r1_w : Rect S768x768 := Rect.unit (s := S768x768) ![0, 0] S768x768.size inb_S768x768_S768x768_0_0
abbrev r1_row : Rect S1x768 := Rect.unit (s := S1x768) ![0, 0] S1x768.size inb_S1x768_S1x768_0_0
abbrev r1_ph : Rect S16x768 := Rect.unit (s := S16x768) ![0, 0] S16x768.size inb_S16x768_S16x768_0_0
abbrev r1_pw : Rect S32x768 := Rect.unit (s := S32x768) ![0, 0] S32x768.size inb_S32x768_S32x768_0_0

def out1_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r1_tok, k0_pay1 (k0_pay2 (View.ld x0 r1_tok) (View.ld x1 r1_w) (View.ld x2 r1_row))
    (k0_pay3 (View.ld x0 r1_tok) (View.ld x1 r1_w) (View.ld x2 r1_row))
    (k0_pay4 (View.ld x0 r1_tok) (View.ld x1 r1_w) (View.ld x2 r1_row))
    (View.ld x4 r1_ph) (View.ld x5 r1_pw) (View.ld x3 r1_row)⟩]

theorem cover1_6 (p0 : Vec F S1x512x768 .f32) (y : S1x512x768.Idx) :
    ∃ pc ∈ ([⟨r1_tok, p0⟩] : List (View.Piece (Elt F) S1x512x768 .f32)), y ∈ pc.1.set :=
  View.cover_of_tiled [⟨r1_tok, p0⟩] S1x512x768.size (by rfl) y

set_option maxHeartbeats 4000000 in

theorem sound_kernel1 (c : Dev nD) (E : Set ℕ) (i : grid1.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__embed_kernel i arg2 harg2 arg3 harg3 arg4 harg4 arg5 harg5 arg6 harg6 arg7 harg7 arg8 harg8) K := by
  simp only [cc1__embed_kernel_eq_skeleton]; unfold cc1__embed_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> intro d <;>
    exact ((dat1 V c).before_in_eq_fetched _ rfl (fun _ => rfl) (fun _ _ _ => rfl)
      (fun t => by dsimp only [dat1]; unfold Dat.blockOf iblk1; try rfl) t d).trans
      (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  have h := before1 V c t
  simp only [h.1, h.2.1, h.2.2.1, h.2.2.2.1, h.2.2.2.2.1, h.2.2.2.2.2]
  rw [show (dat1 V c).Φ t.succ = (dat1 V c).Φ t.castSucc from rfl,
    show (dat1 V c).owesAt () t.succ = (dat1 V c).owesAt () t.castSucc from rfl]
  generalize (dat1 V c).owesAt () t.castSucc = O
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«111676_g55894704390624_cont_9to1_m_944_13_alg».proof.Proof.Gen.KernelIdeal.Launch
import proofs.«111676_g55894704390624_cont_9to1_m_944_13_alg».proof.Proof.Gen.KernelIdeal.Skeleton
import proofs.«111676_g55894704390624_cont_9to1_m_944_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_tok : Rect S1x512x768 := Rect.unit (s := S1x512x768) ![0, 0, 0] S1x512x768.size inb_S1x512x768_S1x512x768_0_0_0
abbrev r2_w : Rect S768x768 := Rect.unit (s := S768x768) ![0, 0] S768x768.size inb_S768x768_S768x768_0_0
abbrev r2_row : Rect S1x768 := Rect.unit (s := S1x768) ![0, 0] S1x768.size inb_S1x768_S1x768_0_0
abbrev r2_ph : Rect S16x768 := Rect.unit (s := S16x768) ![0, 0] S16x768.size inb_S16x768_S16x768_0_0
abbrev r2_pw : Rect S32x768 := Rect.unit (s := S32x768) ![0, 0] S32x768.size inb_S32x768_S32x768_0_0

def out2_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r2_tok, k0_pay1 (k0_pay2 (View.ld x0 r2_tok) (View.ld x1 r2_w) (View.ld x2 r2_row))
    (k0_pay3 (View.ld x0 r2_tok) (View.ld x1 r2_w) (View.ld x2 r2_row))
    (k0_pay4 (View.ld x0 r2_tok) (View.ld x1 r2_w) (View.ld x2 r2_row))
    (View.ld x4 r2_ph) (View.ld x5 r2_pw) (View.ld x3 r2_row)⟩]

theorem cover2_6 (p0 : Vec F S1x512x768 .f32) (y : S1x512x768.Idx) :
    ∃ pc ∈ ([⟨r2_tok, p0⟩] : List (View.Piece (Elt F) S1x512x768 .f32)), y ∈ pc.1.set :=
  View.cover_of_tiled [⟨r2_tok, p0⟩] S1x512x768.size (by rfl) y

set_option maxHeartbeats 4000000 in

theorem sound_kernel2 (c : Dev nD) (E : Set ℕ) (i : grid2.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out2_6 x0 x1 x2 x3 x4 x5)) -∗ K ⟨⟩))
      ⊢ wp frame (wpE (defs₀ (F := F)) Variants.none c none) E (cc2__embed_kernel i arg2 harg2 arg3 harg3 arg4 harg4 arg5 harg5 arg6 harg6 arg7 harg7 arg8 harg8) K := by
  simp only [cc2__embed_kernel_eq_skeleton]; unfold cc2__embed_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl)
      (fun t => by dsimp only [dat2]; unfold Dat.blockOf iblk2; try rfl) t d).trans
      (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  have h := before2 V c t
  simp only [h.1, h.2.1, h.2.2.1, h.2.2.2.1, h.2.2.2.2.1, h.2.2.2.2.2]
  rw [show (dat2 V c).Φ t.succ = (dat2 V c).Φ t.castSucc from rfl,
    show (dat2 V c).owesAt () t.succ = (dat2 V c).owesAt () t.castSucc from rfl]
  generalize (dat2 V c).owesAt () t.castSucc = O
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«111676_g55894704390624_cont_9to1_m_944_13_alg».proof.Proof.Gen.KernelIdeal.Launch
import proofs.«111676_g55894704390624_cont_9to1_m_944_13_alg».proof.Proof.Gen.KernelIdeal.Skeleton
import proofs.«111676_g55894704390624_cont_9to1_m_944_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tok : Rect S1x512x768 := Rect.unit (s := S1x512x768) ![0, 0, 0] S1x512x768.size inb_S1x512x768_S1x512x768_0_0_0
abbrev r3_w : Rect S768x768 := Rect.unit (s := S768x768) ![0, 0] S768x768.size inb_S768x768_S768x768_0_0
abbrev r3_row : Rect S1x768 := Rect.unit (s := S1x768) ![0, 0] S1x768.size inb_S1x768_S1x768_0_0
abbrev r3_ph : Rect S16x768 := Rect.unit (s := S16x768) ![0, 0] S16x768.size inb_S16x768_S16x768_0_0
abbrev r3_pw : Rect S32x768 := Rect.unit (s := S32x768) ![0, 0] S32x768.size inb_S32x768_S32x768_0_0

def out3_6 (x0 : Vec F S1x512x768 .f32) (x1 : Vec F S768x768 .bf16) (x2 : Vec F S1x768 .f32) (x3 : Vec F S1x768 .f32)
    (x4 : Vec F S16x768 .f32) (x5 : Vec F S32x768 .f32) : Vec F S1x512x768 .f32 :=
  View.canon [⟨r3_tok, k0_pay1 (k0_pay2 (View.ld x0 r3_tok) (View.ld x1 r3_w) (View.ld x2 r3_row))
    (k0_pay3 (View.ld x0 r3_tok) (View.ld x1 r3_w) (View.ld x2 r3_row))
    (k0_pay4 (View.ld x0 r3_tok) (View.ld x1 r3_w) (View.ld x2 r3_row))
    (View.ld x4 r3_ph) (View.ld x5 r3_pw) (View.ld x3 r3_row)⟩]

theorem cover3_6 (p0 : Vec F S1x512x768 .f32) (y : S1x512x768.Idx) :
    ∃ pc ∈ ([⟨r3_tok, p0⟩] : List (View.Piece (Elt F) S1x512x768 .f32)), y ∈ pc.1.set :=
  View.cover_of_tiled [⟨r3_tok, p0⟩] S1x512x768.size (by rfl) y

set_option maxHeartbeats 4000000 in

theorem sound_kernel3 (c : Dev nD) (E : Set ℕ) (i : grid3.Coords)
    (arg2 : Memref sig .tc .vmem S1x512x768 .f32) (harg2 : arg2.IsWhole) (arg3 : Memref sig .tc .vmem S768x768 .bf16) (harg3 : arg3.IsWhole)
    (arg4 : Memref sig .tc .vmem S1x768 .f32) (harg4 : arg4.IsWhole) (arg5 : Memref sig .tc .vmem S1x768 .f32) (harg5 : arg5.IsWhole)
    (arg6 : Memref sig .tc .vmem S16x768 .f32) (harg6 : arg6.IsWhole) (arg7 : Memref sig .tc .vmem S32x768 .f32) (harg7 : arg7.IsWhole)
    (arg8 : Memref sig .tc .vmem S1x512x768 .f32) (harg8 : arg8.IsWhole)
    (x0 : Vec F S1x512x768 .f32) (x1 : Vec F S768x768 .bf16) (x2 : Vec F S1x768 .f32) (x3 : Vec F S1x768 .f32)
    (x4 : Vec F S16x768 .f32) (x5 : Vec F S32x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5)) -∗ K ⟨⟩))
      ⊢ wp frame (wpE (defs₀ (F := F)) Variants.none c none) E (cc3__embed_kernel i arg2 harg2 arg3 harg3 arg4 harg4 arg5 harg5 arg6 harg6 arg7 harg7 arg8 harg8) K := by
  simp only [cc3__embed_kernel_eq_skeleton]; unfold cc3__embed_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) ∧ (∀ d, (dat3 V c).before 5 t d = iblk3 V c 5 t) := by
  refine ⟨?_, ?_, ?_, ?_, ?_, ?_⟩ <;> intro d <;>
    exact ((dat3 V c).before_in_eq_fetched _ rfl (fun _ => rfl) (fun _ _ _ => rfl)
      (fun t => by dsimp only [dat3]; unfold Dat.blockOf iblk3; try rfl) t d).trans
      (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  have h := before3 V c t
  simp only [h.1, h.2.1, h.2.2.1, h.2.2.2.1, h.2.2.2.2.1, h.2.2.2.2.2]
  rw [show (dat3 V c).Φ t.succ = (dat3 V c).Φ t.castSucc from rfl,
    show (dat3 V c).owesAt () t.succ = (dat3 V c).owesAt () t.castSucc from rfl]
  generalize (dat3 V c).owesAt () t.castSucc = O
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«111676_g55894704390624_cont_9to1_m_944_13_alg».proof.Proof.KI.Region0
import proofs.«111676_g55894704390624_cont_9to1_m_944_13_alg».proof.Proof.KI.Region1
import proofs.«111676_g55894704390624_cont_9to1_m_944_13_alg».proof.Proof.KI.Region2
import proofs.«111676_g55894704390624_cont_9to1_m_944_13_alg».proof.Proof.KI.Region3
import proofs.«111676_g55894704390624_cont_9to1_m_944_13_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_keep (c : Dev nD) (b : Ref sig .tc) (hb : b ≠ main_v11) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w
      ((by decide : ∀ w : Fin 7, Pipeline.arrRef spec0 w ≠ main_v11 → (cfg0.win w).isOut = false) w hb) _).trans (A_eq0 (V1 m ρ) c w))
  · exact W2_of_ne m ρ c b fun w e => h ⟨w, e⟩

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_keep (c : Dev nD) (b : Ref sig .tc) (hb : b ≠ main_v16) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w
      ((by decide : ∀ w : Fin 7, Pipeline.arrRef spec1 w ≠ main_v16 → (cfg1.win w).isOut = false) w hb) _).trans (A_eq1 (V3 m ρ) c w))
  · exact W4_of_ne m ρ c b fun w e => h ⟨w, e⟩

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_keep (c : Dev nD) (b : Ref sig .tc) (hb : b ≠ main_v21) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w
      ((by decide : ∀ w : Fin 7, Pipeline.arrRef spec2 w ≠ main_v21 → (cfg2.win w).isOut = false) w hb) _).trans (A_eq2 (V5 m ρ) c w))
  · exact W6_of_ne m ρ c b fun w e => h ⟨w, e⟩

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_keep (c : Dev nD) (b : Ref sig .tc) (hb : b ≠ main_v26) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w
      ((by decide : ∀ w : Fin 7, Pipeline.arrRef spec3 w ≠ main_v26 → (cfg3.win w).isOut = false) w hb) _).trans (A_eq3 (V7 m ρ) c w))
  · exact W8_of_ne m ρ c b fun w e => h ⟨w, e⟩

abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

theorem W9_kept (c : Dev nD) (b : Ref sig .tc)
    (h : b ∉ hostOps0_W ∧ b ∉ hostOps1_W ∧ b ∉ hostOps2_W ∧ b ∉ hostOps3_W ∧ b ∉ hostOps4_W
      ∧ b ≠ main_v11 ∧ b ≠ main_v16 ∧ b ≠ main_v21 ∧ b ≠ main_v26) :
    W9 m ρ c (Proc.devRef .tc b) = m ((c : Thread nD τ).loc b) :=
  (StableHlo.after_of_writes_sub hostOps4 _ hostOps4_writes h.2.2.2.2.1).trans <| (W8_keep m ρ c b h.2.2.2.2.2.2.2.2).trans <|
  (StableHlo.after_of_writes_sub hostOps3 _ hostOps3_writes h.2.2.2.1).trans <| (W6_keep m ρ c b h.2.2.2.2.2.2.2.1).trans <|
  (StableHlo.after_of_writes_sub hostOps2 _ hostOps2_writes h.2.2.1).trans <| (W4_keep m ρ c b h.2.2.2.2.2.2.1).trans <|
  (StableHlo.after_of_writes_sub hostOps1 _ hostOps1_writes h.2.1).trans <| (W2_keep m ρ c b h.2.2.2.2.2.1).trans <|
  (StableHlo.after_of_writes_sub hostOps0 _ hostOps0_writes h.1).trans rfl

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in
-- A kernel region as one step of @main between the buffer contents before and after it.
def regOf (p : Fin 4) (launch : Pipeline.LaunchFacts (nD := nD) (τ := τ) cfgs p) (Wi Wo : Dev nD → Valuation τ sig (Elt F))
    (hbody : ∀ c, BodyObligation (pdats m ρ p c) (defs₀ (F := F)) Variants.none () Set.univ)
    (hq : ∀ c w, (pdats m ρ p c).q w = fullShare) (howed : ∀ c t, (pdats m ρ p c).owed t = 0)
    (hrec : ∀ c t, (pdats m ρ p c).recorded t = Set.univ)
    (hΦ : ∀ c j, (pdats m ρ p c).Φ j = Pipeline.ΦA (pcfgs (F := F) p).spec c)
    (hA : ∀ c w, (pdats m ρ p c).A w = Wi c (Pipeline.arrRef (pcfgs (F := F) p).spec w))
    (hF : ∀ c w, (pdats m ρ p c).arrAt w (Pipeline.pin (pcfgs (F := F)) adm p).N = Wo c (Pipeline.arrRef (pcfgs (F := F) p).spec w))
    (hrest : ∀ c (b : Ref sig .tc), b ∉ Finset.univ.image (Pipeline.arrRef (pcfgs (F := F) p).spec) → Wo c b = Wi c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    unfold Pipeline.Dat.owesAt Pipeline.owesWithin
    rw [howed c]
    have hsplit := Pipeline.arrays_of_unscopedBufs (p := p) (pcfgs (F := F)) adm (pdats m ρ) launch.win launch.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c b) (fun b => Wo c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (fun _ _ => rfl) (fun _ _ => rfl)
    (fun _ _ => rfl) (fun _ _ => rfl) (hF0 m ρ) (hrest0 m ρ)

set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (fun _ _ => rfl) (fun _ _ => rfl)
    (fun _ _ => rfl) (fun _ _ => rfl) (hF1 m ρ) (hrest1 m ρ)

set_option backward.isDefEq.respectTransparency.types false in
def reg2 : Pipeline.RegionSeg (pcfgs (F := F)) adm (pdats m ρ) () defs₀ 𝒱₀ L lv 2 :=
  regOf m ρ 2 launch2 (W5 m ρ) (W6 m ρ) (body_obligation2 (V5 m ρ)) (fun _ _ => rfl) (fun _ _ => rfl) (fun _ _ => rfl)
    (fun _ _ => rfl) (fun _ _ => rfl) (hF2 m ρ) (hrest2 m ρ)

set_option backward.isDefEq.respectTransparency.types false in
def reg3 : Pipeline.RegionSeg (pcfgs (F := F)) adm (pdats m ρ) () defs₀ 𝒱₀ L lv 3 :=
  regOf m ρ 3 launch3 (W7 m ρ) (W8 m ρ) (body_obligation3 (V7 m ρ)) (fun _ _ => rfl) (fun _ _ => rfl) (fun _ _ => rfl)
    (fun _ _ => rfl) (fun _ _ => rfl) (hF3 m ρ) (hrest3 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show _ ⊢ iprop(StableHlo.held (c : Thread nD τ) (Pipeline.ucRefs τ sig) (W9 m ρ c) ∗ R c) from .rfl).trans (by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

theorem run_value : θ_run defs (onTc (τ := τ) (main (F := F))) ⟨m, fun _ => 0, ρ⟩ (fun r => ∀ c : Dev nD,
      r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v27 (by decide)),
     (h c _ (mem_uc main_arg0 (by decide))).trans (W9_kept m ρ c main_arg0 (by decide)),
     (h c _ (mem_uc main_arg1 (by decide))).trans (W9_kept m ρ c main_arg1 (by decide)),
     (h c _ (mem_uc main_arg2 (by decide))).trans (W9_kept m ρ c main_arg2 (by decide)),
     (h c _ (mem_uc main_arg3 (by decide))).trans (W9_kept m ρ c main_arg3 (by decide)),
     (h c _ (mem_uc main_arg4 (by decide))).trans (W9_kept m ρ c main_arg4 (by decide)),
     (h c _ (mem_uc main_arg5 (by decide))).trans (W9_kept m ρ c main_arg5 (by decide)),
     (h c _ (mem_uc main_arg6 (by decide))).trans (W9_kept m ρ c main_arg6 (by decide))⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.LibCoe.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

theorem add_coe (a b : ℝ) : (a : EReal) + (b : EReal) = ((a + b : ℝ) : EReal) :=
  (EReal.coe_add a b).symm

theorem sub_coe (a b : ℝ) : (a : EReal) - (b : EReal) = ((a - b : ℝ) : EReal) :=
  (EReal.coe_sub a b).symm

theorem mul_coe (a b : ℝ) : (a : EReal) * (b : EReal) = ((a * b : ℝ) : EReal) :=
  (EReal.coe_mul a b).symm

theorem neg_coe (a : ℝ) : -(a : EReal) = ((-a : ℝ) : EReal) :=
  (EReal.coe_neg a).symm

theorem div_coe_coe (a : ℝ) {b : ℝ} (hb : b ≠ 0) :
    Ideal.div (a : EReal) (b : EReal) = ((a / b : ℝ) : EReal) := by
  rw [Ideal.div_coe hb, ← EReal.coe_mul, mul_one_div]

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

theorem exp_coe (r : ℝ) : Ideal.exp (r : EReal) = ((Real.exp r : ℝ) : EReal) := rfl

theorem log_coe_pos {r : ℝ} (hr : 0 < r) :
    Ideal.log (r : EReal) = ((Real.log r : ℝ) : EReal) := by
  rw [Ideal.log_coe, if_neg (not_le.mpr hr)]

theorem cmp_ogt_coe (a b : ℝ) :
    Ideal.cmp .ogt (a : EReal) (b : EReal) = BitVec.ofBool (decide (b < a)) := by
  simp only [Ideal.cmp, EReal.coe_lt_coe_iff]

theorem cmp_ogt_coe_zero_of_pos {a : ℝ} (ha : 0 < a) :
    Ideal.cmp .ogt (a : EReal) ((0 : ℝ) : EReal) = 1#1 := by
  rw [cmp_ogt_coe, decide_eq_true ha]; rfl

theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

def epsR : ℝ := 10995116 / 1099511627776

theorem epsR_pos : 0 < epsR := by unfold epsR; norm_num

theorem ofBits_eps : Ideal.ofBits .f32 0x3727C5AC#32 = ((epsR : ℝ) : EReal) := by
  unfold epsR
  simp [Ideal.ofBits, Ideal.ieee, -EReal.coe_mul]; norm_num

theorem ofBits_neg_inf : Ideal.ofBits .f32 0xFF800000#32 = (⊥ : EReal) := by
  simp [Ideal.ofBits, Ideal.ieee]

end Cert.LibCoe

end
-- ==== Proof.Spec.lean ====
import proofs.«111676_g55894704390624_cont_9to1_m_944_13_alg».proof.Proof.LibCoe
import Idealize.ShloMosaic.Lib.ValueIdx
import Mathlib.Analysis.SpecialFunctions.Sqrt
import Mathlib.Algebra.BigOperators.Ring.Finset
import Mathlib.Tactic.Ring
import Mathlib.Tactic.FieldSimp
import Mathlib.Tactic.Positivity
import Mathlib.Tactic.Linarith

noncomputable section

namespace Cert.Spec

open Idealize.ShloMosaic
open Finset BigOperators

abbrev epsR : ℝ := Cert.LibCoe.epsR

def mean (x : Fin 768 → ℝ) : ℝ := (∑ k, x k) / 768

def var (x : Fin 768 → ℝ) : ℝ := (∑ k, (x k - mean x) * (x k - mean x)) / 768

def varK (x : Fin 768 → ℝ) : ℝ := (∑ k, x k * x k) / 768 - mean x * mean x

theorem varK_eq_var (x : Fin 768 → ℝ) : varK x = var x := by

  have hs : (∑ k, x k) = 768 * mean x := by unfold mean; ring

  have hexp : (∑ k, (x k - mean x) * (x k - mean x))
      = (∑ k, x k * x k) - 2 * mean x * (∑ k, x k) + 768 * (mean x * mean x) := by
    have hk : ∀ k, (x k - mean x) * (x k - mean x) = x k * x k - 2 * mean x * x k + mean x * mean x :=
      fun k => by ring
    simp only [hk]
    rw [Finset.sum_add_distrib, Finset.sum_sub_distrib, ← Finset.mul_sum, Finset.sum_const, Finset.card_univ,
      Fintype.card_fin, nsmul_eq_mul]
    norm_num
  unfold varK var
  rw [hexp, hs]
  field_simp
  ring

theorem var_nonneg (x : Fin 768 → ℝ) : 0 ≤ var x :=
  div_nonneg (Finset.sum_nonneg fun _ _ => mul_self_nonneg _) (by norm_num)

theorem var_eps_pos (x : Fin 768 → ℝ) : 0 < var x + epsR := by
  have := var_nonneg x; have := Cert.LibCoe.epsR_pos; unfold epsR; linarith

theorem varK_eps_pos (x : Fin 768 → ℝ) : 0 < varK x + epsR := by rw [varK_eq_var]; exact var_eps_pos x

def lnR (x g : Fin 768 → ℝ) (k : Fin 768) : ℝ := (x k - mean x) / Real.sqrt (var x + epsR) * g k

def linR (z : Fin 768 → ℝ) (W : Fin 768 → Fin 768 → ℝ) (b : Fin 768 → ℝ) (d : Fin 768) : ℝ := (∑ k, z k * W d k) + b d

def rowR (x g1 : Fin 768 → ℝ) (W : Fin 768 → Fin 768 → ℝ) (b g2 p : Fin 768 → ℝ) (d : Fin 768) : ℝ :=
  lnR (linR (lnR x g1) W b) g2 d + p d

def rsK (x : Fin 768 → ℝ) : ℝ := (Real.sqrt (varK x + epsR))⁻¹

def nK (x : Fin 768 → ℝ) (k : Fin 768) : ℝ := x k * rsK x - mean x * rsK x

def linK (z : Fin 768 → ℝ) (Wg : Fin 768 → Fin 768 → ℝ) (b : Fin 768 → ℝ) (d : Fin 768) : ℝ := (∑ k, z k * Wg k d) + b d

def rowK (x : Fin 768 → ℝ) (Wg : Fin 768 → Fin 768 → ℝ) (b g2 p : Fin 768 → ℝ) (d : Fin 768) : ℝ :=
  nK (linK (nK x) Wg b) d * g2 d + p d

theorem rsK_eq (x : Fin 768 → ℝ) : rsK x = (Real.sqrt (var x + epsR))⁻¹ := by
  unfold rsK; rw [varK_eq_var]

theorem nK_eq (x : Fin 768 → ℝ) (k : Fin 768) : nK x k = (x k - mean x) / Real.sqrt (var x + epsR) := by
  unfold nK; rw [rsK_eq, div_eq_mul_inv, sub_mul]

theorem nK_mul (x g : Fin 768 → ℝ) (k : Fin 768) : nK x k * g k = lnR x g k := by
  unfold lnR; rw [nK_eq]

theorem linK_eq (x g1 : Fin 768 → ℝ) (W : Fin 768 → Fin 768 → ℝ) (b : Fin 768 → ℝ) :
    linK (nK x) (fun k d => W d k * g1 k) b = linR (lnR x g1) W b := by
  funext d
  unfold linK linR
  congr 1
  refine Finset.sum_congr rfl fun k _ => ?_
  rw [← nK_mul]; ring

theorem rowK_eq_rowR (x g1 : Fin 768 → ℝ) (W : Fin 768 → Fin 768 → ℝ) (b g2 p : Fin 768 → ℝ) (d : Fin 768) :
    rowK x (fun k d => W d k * g1 k) b g2 p d = rowR x g1 W b g2 p d := by
  unfold rowK rowR
  rw [linK_eq, nK_mul]

def tokOf (I : (⟨4, ![16, 3, 512, 512]⟩ : Shape).Idx → ℝ) (B : Fin 16) (t : Fin 1024) (k : Fin 768) : ℝ :=
  I (ValueIdx.ix4 B (⟨k.val / 256, by have := k.isLt; omega⟩ : Fin 3)
    (⟨(t.val / 32) * 16 + (k.val % 256) / 16, by have := t.isLt; omega⟩ : Fin 512)
    (⟨(t.val % 32) * 16 + k.val % 16, by omega⟩ : Fin 512))

def posOf (PH PW : (⟨2, ![32, 768]⟩ : Shape).Idx → ℝ) (t : Fin 1024) (d : Fin 768) : ℝ :=
  PH (ValueIdx.ix2 (⟨t.val / 32, by have := t.isLt; omega⟩ : Fin 32) d) + PW (ValueIdx.ix2 (⟨t.val % 32, by omega⟩ : Fin 32) d)

def outR (I : (⟨4, ![16, 3, 512, 512]⟩ : Shape).Idx → ℝ) (g1 : (⟨1, ![768]⟩ : Shape).Idx → ℝ) (W : (⟨2, ![768, 768]⟩ : Shape).Idx → ℝ)
    (b g2 : (⟨1, ![768]⟩ : Shape).Idx → ℝ) (PH PW : (⟨2, ![32, 768]⟩ : Shape).Idx → ℝ) (B : Fin 16) (t : Fin 1024) (d : Fin 768) : ℝ :=
  rowR (tokOf I B t) (fun k => g1 (ValueIdx.ix1 k)) (fun d k => W (ValueIdx.ix2 d k)) (fun d => b (ValueIdx.ix1 d))
    (fun d => g2 (ValueIdx.ix1 d)) (posOf PH PW t) d

def outK (I : (⟨4, ![16, 3, 512, 512]⟩ : Shape).Idx → ℝ) (g1 : (⟨1, ![768]⟩ : Shape).Idx → ℝ) (W : (⟨2, ![768, 768]⟩ : Shape).Idx → ℝ)
    (b g2 : (⟨1, ![768]⟩ : Shape).Idx → ℝ) (PH PW : (⟨2, ![32, 768]⟩ : Shape).Idx → ℝ) (B : Fin 16) (t : Fin 1024) (d : Fin 768) : ℝ :=
  rowK (tokOf I B t) (fun k d => W (ValueIdx.ix2 d k) * g1 (ValueIdx.ix1 k)) (fun d => b (ValueIdx.ix1 d))
    (fun d => g2 (ValueIdx.ix1 d)) (posOf PH PW t) d

theorem outK_eq_outR (I : (⟨4, ![16, 3, 512, 512]⟩ : Shape).Idx → ℝ) (g1 : (⟨1, ![768]⟩ : Shape).Idx → ℝ) (W : (⟨2, ![768, 768]⟩ : Shape).Idx → ℝ)
    (b g2 : (⟨1, ![768]⟩ : Shape).Idx → ℝ) (PH PW : (⟨2, ![32, 768]⟩ : Shape).Idx → ℝ) (B : Fin 16) (t : Fin 1024) (d : Fin 768) :
    outK I g1 W b g2 PH PW B t d = outR I g1 W b g2 PH PW B t d :=
  rowK_eq_rowR _ _ _ _ _ _ _

end Cert.Spec

end
-- ==== Proof.KI.Glue.lean ====
import proofs.«111676_g55894704390624_cont_9to1_m_944_13_alg».proof.Proof.KI.Run
import proofs.«111676_g55894704390624_cont_9to1_m_944_13_alg».proof.Proof.Spec
import proofs.«111676_g55894704390624_cont_9to1_m_944_13_alg».proof.Proof.LibCoe
import Idealize.ShloMosaic.Lib.StableHlo.Run
import Idealize.ShloMosaic.Lib.ValueIdx
import Idealize.ShloMosaic.Lib.ValueIdxRank6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- Token (patch row, patch column) and feature (channel, row, column in the patch) of an image name one pixel.
theorem tok_chain {α : Type} (off : Nat) (x : S16x3x512x512.Idx → α) (hs : S16x3x512x512.Slices ![off, 0, 0, 0] S4x3x512x512)
    (i : Fin 4) (r : Fin 1024) (k : Fin 768) (B : Fin 16) (hB : B.val = off + i.val) :
    shapeCast S4x1024x768 (transpose S4x32x32x3x16x16 [0, 2, 4, 1, 3, 5]
        (shapeCast S4x3x32x16x32x16 (extractStridedSlice S4x3x512x512 ![off, 0, 0, 0] x hs) shapeCasts_S4x3x512x512_S4x3x32x16x32x16)
        transposes_S4x3x32x16x32x16_S4x32x32x3x16x16_0_2_4_1_3_5) shapeCasts_S4x32x32x3x16x16_S4x1024x768 (ix3 i r k)
      = x (ix4 B (⟨k.val / 256, by have := k.isLt; omega⟩ : Fin 3)
          (⟨(r.val / 32) * 16 + (k.val % 256) / 16, by have := r.isLt; omega⟩ : Fin 512)
          (⟨(r.val % 32) * 16 + k.val % 16, by omega⟩ : Fin 512)) := by
  have hk := k.isLt; have hr := r.isLt; have hi := i.isLt
  refine (shapeCast_apply _ _ (ix3 i r k)
    (ix6 i (⟨r.val / 32, by omega⟩ : Fin 32) (⟨r.val % 32, by omega⟩ : Fin 32) (⟨k.val / 256, by omega⟩ : Fin 3)
      (⟨(k.val % 256) / 16, by omega⟩ : Fin 16) (⟨k.val % 16, by omega⟩ : Fin 16)) ?_).trans ?_
  · rw [Shape.rowMajor_val_six, Shape.rowMajor_val_three]
    have e : ((((i.val * 32 + r.val / 32) * 32 + r.val % 32) * 3 + k.val / 256) * 16 + (k.val % 256) / 16) * 16 + k.val % 16
      = (i.val * 1024 + r.val) * 768 + k.val := by omega
    exact e
  refine (transpose_apply _ _ _ _
    (ix6 i (⟨k.val / 256, by omega⟩ : Fin 3) (⟨r.val / 32, by omega⟩ : Fin 32) (⟨(k.val % 256) / 16, by omega⟩ : Fin 16)
      (⟨r.val % 32, by omega⟩ : Fin 32) (⟨k.val % 16, by omega⟩ : Fin 16)) ?_).trans ?_
  · exact fun b => match b with
      | ⟨0, _⟩ => rfl | ⟨1, _⟩ => rfl | ⟨2, _⟩ => rfl | ⟨3, _⟩ => rfl | ⟨4, _⟩ => rfl | ⟨5, _⟩ => rfl
  refine (shapeCast_apply _ _ _
    (ix4 i (⟨k.val / 256, by omega⟩ : Fin 3) (⟨(r.val / 32) * 16 + (k.val % 256) / 16, by omega⟩ : Fin 512)
      (⟨(r.val % 32) * 16 + k.val % 16, by omega⟩ : Fin 512)) ?_).trans ?_
  · rw [Shape.rowMajor_val_six, Shape.rowMajor_val_four]
    have e : ((i.val * 3 + k.val / 256) * 512 + ((r.val / 32) * 16 + (k.val % 256) / 16)) * 512 + ((r.val % 32) * 16 + k.val % 16)
      = ((((i.val * 3 + k.val / 256) * 32 + r.val / 32) * 16 + (k.val % 256) / 16) * 32 + r.val % 32) * 16 + k.val % 16 := by omega
    exact e
  refine extractStridedSlice_apply _ _ _ _ _ ?_
  exact fun a => match a with
    | ⟨0, _⟩ => hB
    | ⟨1, _⟩ => (Nat.zero_add _).symm
    | ⟨2, _⟩ => (Nat.zero_add _).symm
    | ⟨3, _⟩ => (Nat.zero_add _).symm

/-- The seven argument arrays hold real numbers. -/
structure RealArgs (m : (ℓ : Loc nD τ sig) → Buf (Elt Ideal) ℓ) (c : Dev nD) where
  I : S16x3x512x512.Idx → ℝ
  g1 : S768.Idx → ℝ
  W : S768x768.Idx → ℝ
  b : S768.Idx → ℝ
  g2 : S768.Idx → ℝ
  PH : S32x768.Idx → ℝ
  PW : S32x768.Idx → ℝ
  h0 : (m ((c : Thread nD τ).loc main_arg0) : S16x3x512x512.Idx → EReal) = fun i => ((I i : ℝ) : EReal)
  h1 : (m ((c : Thread nD τ).loc main_arg1) : S768.Idx → EReal) = fun i => ((g1 i : ℝ) : EReal)
  h2 : (m ((c : Thread nD τ).loc main_arg2) : S768x768.Idx → EReal) = fun i => ((W i : ℝ) : EReal)
  h3 : (m ((c : Thread nD τ).loc main_arg3) : S768.Idx → EReal) = fun i => ((b i : ℝ) : EReal)
  h4 : (m ((c : Thread nD τ).loc main_arg4) : S768.Idx → EReal) = fun i => ((g2 i : ℝ) : EReal)
  h5 : (m ((c : Thread nD τ).loc main_arg5) : S32x768.Idx → EReal) = fun i => ((PH i : ℝ) : EReal)
  h6 : (m ((c : Thread nD τ).loc main_arg6) : S32x768.Idx → EReal) = fun i => ((PW i : ℝ) : EReal)

variable (m : (ℓ : Loc nD τ sig) → Buf (Elt Ideal) ℓ) (ρ : Dev nD → PrngReg) (c : Dev nD)

-- The image argument is read and never written, so it is the same at every boundary.
theorem W2_arg0 : W2 m ρ c (Proc.devRef .tc main_arg0) = m ((c : Thread nD τ).loc main_arg0) :=
  (W2_of_ne m ρ c main_arg0 (by decide)).trans (StableHlo.after_of_writes_sub hostOps0 _ hostOps0_writes (by decide))
theorem W4_arg0 : W4 m ρ c (Proc.devRef .tc main_arg0) = m ((c : Thread nD τ).loc main_arg0) :=
  (W4_of_ne m ρ c main_arg0 (by decide)).trans
    ((StableHlo.after_of_writes_sub hostOps1 _ hostOps1_writes (by decide)).trans (W2_arg0 m ρ c))
theorem W6_arg0 : W6 m ρ c (Proc.devRef .tc main_arg0) = m ((c : Thread nD τ).loc main_arg0) :=
  (W6_of_ne m ρ c main_arg0 (by decide)).trans
    ((StableHlo.after_of_writes_sub hostOps2 _ hostOps2_writes (by decide)).trans (W4_arg0 m ρ c))

-- What a region only reads is unchanged by it and by the host operations after it, which write other arrays.
theorem keep0 (b : Ref sig .tc) (hb : b ≠ main_v11) (hw : b ∉ hostOps1_W) :
    W3 m ρ c (Proc.devRef .tc b) = W1 m ρ c (Proc.devRef .tc b) :=
  (StableHlo.after_of_writes_sub hostOps1 _ hostOps1_writes hw).trans (W2_keep m ρ c b hb)
theorem keep1 (b : Ref sig .tc) (hb : b ≠ main_v16) (hw : b ∉ hostOps2_W) :
    W5 m ρ c (Proc.devRef .tc b) = W3 m ρ c (Proc.devRef .tc b) :=
  (StableHlo.after_of_writes_sub hostOps2 _ hostOps2_writes hw).trans (W4_keep m ρ c b hb)
theorem keep2 (b : Ref sig .tc) (hb : b ≠ main_v21) (hw : b ∉ hostOps3_W) :
    W7 m ρ c (Proc.devRef .tc b) = W5 m ρ c (Proc.devRef .tc b) :=
  (StableHlo.after_of_writes_sub hostOps3 _ hostOps3_writes hw).trans (W6_keep m ρ c b hb)

theorem W8_v11 : W8 m ρ c (Proc.devRef .tc main_v11) = (dat0 (V1 m ρ) c).arrAt 6 cfg0.N :=
  calc W8 m ρ c (Proc.devRef .tc main_v11)
    _ = W7 m ρ c (Proc.devRef .tc main_v11) := W8_of_ne m ρ c main_v11 (by decide)
    _ = W6 m ρ c (Proc.devRef .tc main_v11) := StableHlo.after_of_writes_sub hostOps3 _ hostOps3_writes (by decide)
    _ = W5 m ρ c (Proc.devRef .tc main_v11) := W6_of_ne m ρ c main_v11 (by decide)
    _ = W4 m ρ c (Proc.devRef .tc main_v11) := StableHlo.after_of_writes_sub hostOps2 _ hostOps2_writes (by decide)
    _ = W3 m ρ c (Proc.devRef .tc main_v11) := W4_of_ne m ρ c main_v11 (by decide)
    _ = W2 m ρ c (Proc.devRef .tc main_v11) := StableHlo.after_of_writes_sub hostOps1 _ hostOps1_writes (by decide)
    _ = (dat0 (V1 m ρ) c).arrAt 6 cfg0.N := W2_arr m ρ c 6
theorem W8_v16 : W8 m ρ c (Proc.devRef .tc main_v16) = (dat1 (V3 m ρ) c).arrAt 6 cfg1.N :=
  calc W8 m ρ c (Proc.devRef .tc main_v16)
    _ = W7 m ρ c (Proc.devRef .tc main_v16) := W8_of_ne m ρ c main_v16 (by decide)
    _ = W6 m ρ c (Proc.devRef .tc main_v16) := StableHlo.after_of_writes_sub hostOps3 _ hostOps3_writes (by decide)
    _ = W5 m ρ c (Proc.devRef .tc main_v16) := W6_of_ne m ρ c main_v16 (by decide)
    _ = W4 m ρ c (Proc.devRef .tc main_v16) := StableHlo.after_of_writes_sub hostOps2 _ hostOps2_writes (by decide)
    _ = (dat1 (V3 m ρ) c).arrAt 6 cfg1.N := W4_arr m ρ c 6
theorem W8_v21 : W8 m ρ c (Proc.devRef .tc main_v21) = (dat2 (V5 m ρ) c).arrAt 6 cfg2.N :=
  calc W8 m ρ c (Proc.devRef .tc main_v21)
    _ = W7 m ρ c (Proc.devRef .tc main_v21) := W8_of_ne m ρ c main_v21 (by decide)
    _ = W6 m ρ c (Proc.devRef .tc main_v21) := StableHlo.after_of_writes_sub hostOps3 _ hostOps3_writes (by decide)
    _ = (dat2 (V5 m ρ) c).arrAt 6 cfg2.N := W6_arr m ρ c 6
theorem W8_v26 : W8 m ρ c (Proc.devRef .tc main_v26) = (dat3 (V7 m ρ) c).arrAt 6 cfg3.N := W8_arr m ρ c 6

theorem result_raw : (W9 m ρ c (Proc.devRef .tc main_v27) : S16x1024x768.Idx → EReal)
    = concatenate S16x1024x768 0 [⟨S4x1024x768, (W8 m ρ c (Proc.devRef .tc main_v11) : S4x1024x768.Idx → EReal)⟩,
        ⟨S4x1024x768, (W8 m ρ c (Proc.devRef .tc main_v16) : S4x1024x768.Idx → EReal)⟩,
        ⟨S4x1024x768, (W8 m ρ c (Proc.devRef .tc main_v21) : S4x1024x768.Idx → EReal)⟩,
        ⟨S4x1024x768, (W8 m ρ c (Proc.devRef .tc main_v26) : S4x1024x768.Idx → EReal)⟩]
        concatenates_S4x1024x768_S4x1024x768_S4x1024x768_S4x1024x768_S16x1024x768_d0 := by
  show StableHlo.after hostOps4 _ (Proc.devRef .tc main_v27) = _
  after_results
  all_goals rfl

theorem result_chunk0 (i : Fin 4) (t : Fin 1024) (d : Fin 768) :
    (W9 m ρ c (Proc.devRef .tc main_v27) : S16x1024x768.Idx → EReal) (ix3 (⟨0 + i.val, by have := i.isLt; omega⟩ : Fin 16) t d)
      = ((dat0 (V1 m ρ) c).arrAt 6 cfg0.N : S4x1024x768.Idx → EReal) (ix3 i t d) := by
  rw [result_raw]
  refine (concatenate_apply_piece (0 : Fin S16x1024x768.rank) _ _ _ 0 (by exact (show 0 < 4 by decide)) S4x1024x768 _ rfl rfl 0 rfl (ix3 i t d) ?_ ?_).trans ?_
  · exact fun a ha => match a, ha with
      | ⟨0, _⟩, ha => absurd rfl ha
      | ⟨1, _⟩, _ => rfl
      | ⟨2, _⟩, _ => rfl
  · rfl
  · exact congrFun (W8_v11 m ρ c) _

theorem result_chunk1 (i : Fin 4) (t : Fin 1024) (d : Fin 768) :
    (W9 m ρ c (Proc.devRef .tc main_v27) : S16x1024x768.Idx → EReal) (ix3 (⟨4 + i.val, by have := i.isLt; omega⟩ : Fin 16) t d)
      = ((dat1 (V3 m ρ) c).arrAt 6 cfg1.N : S4x1024x768.Idx → EReal) (ix3 i t d) := by
  rw [result_raw]
  refine (concatenate_apply_piece (0 : Fin S16x1024x768.rank) _ _ _ 1 (by exact (show 1 < 4 by decide)) S4x1024x768 _ rfl rfl 4 rfl (ix3 i t d) ?_ ?_).trans ?_
  · exact fun a ha => match a, ha with
      | ⟨0, _⟩, ha => absurd rfl ha
      | ⟨1, _⟩, _ => rfl
      | ⟨2, _⟩, _ => rfl
  · rfl
  · exact congrFun (W8_v16 m ρ c) _

theorem result_chunk2 (i : Fin 4) (t : Fin 1024) (d : Fin 768) :
    (W9 m ρ c (Proc.devRef .tc main_v27) : S16x1024x768.Idx → EReal) (ix3 (⟨8 + i.val, by have := i.isLt; omega⟩ : Fin 16) t d)
      = ((dat2 (V5 m ρ) c).arrAt 6 cfg2.N : S4x1024x768.Idx → EReal) (ix3 i t d) := by
  rw [result_raw]
  refine (concatenate_apply_piece (0 : Fin S16x1024x768.rank) _ _ _ 2 (by exact (show 2 < 4 by decide)) S4x1024x768 _ rfl rfl 8 rfl (ix3 i t d) ?_ ?_).trans ?_
  · exact fun a ha => match a, ha with
      | ⟨0, _⟩, ha => absurd rfl ha
      | ⟨1, _⟩, _ => rfl
      | ⟨2, _⟩, _ => rfl
  · rfl
  · exact congrFun (W8_v21 m ρ c) _

theorem result_chunk3 (i : Fin 4) (t : Fin 1024) (d : Fin 768) :
    (W9 m ρ c (Proc.devRef .tc main_v27) : S16x1024x768.Idx → EReal) (ix3 (⟨12 + i.val, by have := i.isLt; omega⟩ : Fin 16) t d)
      = ((dat3 (V7 m ρ) c).arrAt 6 cfg3.N : S4x1024x768.Idx → EReal) (ix3 i t d) := by
  rw [result_raw]
  refine (concatenate_apply_piece (0 : Fin S16x1024x768.rank) _ _ _ 3 (by exact (show 3 < 4 by decide)) S4x1024x768 _ rfl rfl 12 rfl (ix3 i t d) ?_ ?_).trans ?_
  · exact fun a ha => match a, ha with
      | ⟨0, _⟩, ha => absurd rfl ha
      | ⟨1, _⟩, _ => rfl
      | ⟨2, _⟩, _ => rfl
  · rfl
  · exact congrFun (W8_v26 m ρ c) _

variable (A : RealArgs m c)

theorem entry0_tok (i : Fin 4) (r : Fin 1024) (k : Fin 768) :
    (V1 m ρ c main_v10 : S4x1024x768.Idx → EReal) (ix3 i r k)
      = ((Cert.Spec.tokOf A.I (⟨0 + i.val, by have := i.isLt; omega⟩ : Fin 16) r k : ℝ) : EReal) := by
  have e : (V1 m ρ c main_v10 : S4x1024x768.Idx → EReal)
      = shapeCast S4x1024x768 (transpose S4x32x32x3x16x16 [0, 2, 4, 1, 3, 5]
        (shapeCast S4x3x32x16x32x16 (extractStridedSlice S4x3x512x512 ![0, 0, 0, 0] ((m ((c : Thread nD τ).loc main_arg0)) : S16x3x512x512.Idx → EReal)
          slices_S16x3x512x512_S4x3x512x512_0_0_0_0) shapeCasts_S4x3x512x512_S4x3x32x16x32x16)
        transposes_S4x3x32x16x32x16_S4x32x32x3x16x16_0_2_4_1_3_5) shapeCasts_S4x32x32x3x16x16_S4x1024x768 := by
    show StableHlo.after hostOps0 _ (Proc.devRef .tc main_v10) = _
    after_results
    all_goals rfl
  rw [e, A.h0]
  exact tok_chain 0 _ _ i r k _ rfl

theorem entry0_w (k d : Fin 768) :
    (V1 m ρ c main_v4 : S768x768.Idx → EReal) (ix2 k d) = ((A.W (ix2 d k) * A.g1 (ix1 k) : ℝ) : EReal) := by
  have e : (V1 m ρ c main_v4 : S768x768.Idx → EReal)
      = (truncf (F := Ideal) .bf16 (transpose S768x768 [1, 0] (mulf (F := Ideal) ((m ((c : Thread nD τ).loc main_arg2)) : S768x768.Idx → EReal)
          (broadcastInDim S768x768 ![0, 1] bcast_S1x768_S768x768_0_1
            (broadcastInDim S1x768 ![1] bcast_S768_S1x768_1 ((m ((c : Thread nD τ).loc main_arg1)) : S768.Idx → EReal))))
          transposes_S768x768_S768x768_1_0) bitsLt_bf16_f32 : S768x768.Idx → EReal) := by
    show StableHlo.after hostOps0 _ (Proc.devRef .tc main_v4) = _
    after_results
    all_goals rfl
  rw [e, truncf_apply]
  refine (transpose_apply _ _ _ (ix2 k d) (ix2 d k) (fun a => match a with | ⟨0, _⟩ => rfl | ⟨1, _⟩ => rfl)).trans ?_
  rw [mulf_apply]
  have e1 : broadcastInDim S768x768 ![0, 1] bcast_S1x768_S768x768_0_1
      (broadcastInDim S1x768 ![1] bcast_S768_S1x768_1 ((m ((c : Thread nD τ).loc main_arg1)) : S768.Idx → EReal)) (ix2 d k)
      = ((m ((c : Thread nD τ).loc main_arg1)) : S768.Idx → EReal) (ix1 k) :=
    (broadcastInDim_apply _ _ _ (ix2 d k) (ix2 (0 : Fin 1) k) (fun a => match a with | ⟨0, _⟩ => rfl | ⟨1, _⟩ => rfl)).trans
      (broadcastInDim_apply _ _ _ (ix2 (0 : Fin 1) k) (ix1 k) (fun a => match a with | ⟨0, _⟩ => rfl))
  rw [e1, A.h1, A.h2]
  exact Cert.LibCoe.mul_coe _ _

theorem entry0_b (d : Fin 768) :
    (V1 m ρ c main_v5 : S1x768.Idx → EReal) (ix2 (0 : Fin 1) d) = ((A.b (ix1 d) : ℝ) : EReal) := by
  have e : (V1 m ρ c main_v5 : S1x768.Idx → EReal)
      = shapeCast S1x768 ((m ((c : Thread nD τ).loc main_arg3)) : S768.Idx → EReal) shapeCasts_S768_S1x768 := by
    show StableHlo.after hostOps0 _ (Proc.devRef .tc main_v5) = _
    after_results
    all_goals rfl
  rw [e, A.h3]
  refine shapeCast_apply _ _ (ix2 (0 : Fin 1) d) (ix1 d) ?_
  rw [Shape.rowMajor_val_one, Shape.rowMajor_val_two]
  exact (Nat.zero_add _).symm.trans (congrArg (· + d.val) (Nat.zero_mul 768).symm)

theorem entry0_g (d : Fin 768) :
    (V1 m ρ c main_v6 : S1x768.Idx → EReal) (ix2 (0 : Fin 1) d) = ((A.g2 (ix1 d) : ℝ) : EReal) := by
  have e : (V1 m ρ c main_v6 : S1x768.Idx → EReal)
      = shapeCast S1x768 ((m ((c : Thread nD τ).loc main_arg4)) : S768.Idx → EReal) shapeCasts_S768_S1x768 := by
    show StableHlo.after hostOps0 _ (Proc.devRef .tc main_v6) = _
    after_results
    all_goals rfl
  rw [e, A.h4]
  refine shapeCast_apply _ _ (ix2 (0 : Fin 1) d) (ix1 d) ?_
  rw [Shape.rowMajor_val_one, Shape.rowMajor_val_two]
  exact (Nat.zero_add _).symm.trans (congrArg (· + d.val) (Nat.zero_mul 768).symm)

theorem entry0_ph (a : Fin 32) (d : Fin 768) :
    (V1 m ρ c main_arg5 : S32x768.Idx → EReal) (ix2 a d) = ((A.PH (ix2 a d) : ℝ) : EReal) := by
  have e : (V1 m ρ c main_arg5 : S32x768.Idx → EReal) = (m ((c : Thread nD τ).loc main_arg5)) :=
    StableHlo.after_of_writes_sub hostOps0 _ hostOps0_writes (by decide)
  rw [e, A.h5]

theorem entry0_pw (a : Fin 32) (d : Fin 768) :
    (V1 m ρ c main_arg6 : S32x768.Idx → EReal) (ix2 a d) = ((A.PW (ix2 a d) : ℝ) : EReal) := by
  have e : (V1 m ρ c main_arg6 : S32x768.Idx → EReal) = (m ((c : Thread nD τ).loc main_arg6)) :=
    StableHlo.after_of_writes_sub hostOps0 _ hostOps0_writes (by decide)
  rw [e, A.h6]

theorem entry1_tok (i : Fin 4) (r : Fin 1024) (k : Fin 768) :
    (V3 m ρ c main_v15 : S4x1024x768.Idx → EReal) (ix3 i r k)
      = ((Cert.Spec.tokOf A.I (⟨4 + i.val, by have := i.isLt; omega⟩ : Fin 16) r k : ℝ) : EReal) := by
  have e : (V3 m ρ c main_v15 : S4x1024x768.Idx → EReal)
      = shapeCast S4x1024x768 (transpose S4x32x32x3x16x16 [0, 2, 4, 1, 3, 5]
        (shapeCast S4x3x32x16x32x16 (extractStridedSlice S4x3x512x512 ![4, 0, 0, 0] (W2 m ρ c (Proc.devRef .tc main_arg0) : S16x3x512x512.Idx → EReal)
          slices_S16x3x512x512_S4x3x512x512_4_0_0_0) shapeCasts_S4x3x512x512_S4x3x32x16x32x16)
        transposes_S4x3x32x16x32x16_S4x32x32x3x16x16_0_2_4_1_3_5) shapeCasts_S4x32x32x3x16x16_S4x1024x768 := by
    show StableHlo.after hostOps1 _ (Proc.devRef .tc main_v15) = _
    after_results
    all_goals rfl
  rw [e, W2_arg0 m ρ c, A.h0]
  exact tok_chain 4 _ _ i r k _ rfl

theorem entry1_w (k d : Fin 768) :
    (V3 m ρ c main_v4 : S768x768.Idx → EReal) (ix2 k d) = ((A.W (ix2 d k) * A.g1 (ix1 k) : ℝ) : EReal) := by
  rw [show (V3 m ρ c main_v4 : S768x768.Idx → EReal) = V1 m ρ c main_v4 from keep0 m ρ c main_v4 (by decide) (by decide)]
  exact entry0_w m ρ c A k d

theorem entry1_b (d : Fin 768) :
    (V3 m ρ c main_v5 : S1x768.Idx → EReal) (ix2 (0 : Fin 1) d) = ((A.b (ix1 d) : ℝ) : EReal) := by
  rw [show (V3 m ρ c main_v5 : S1x768.Idx → EReal) = V1 m ρ c main_v5 from keep0 m ρ c main_v5 (by decide) (by decide)]
  exact entry0_b m ρ c A d

theorem entry1_g (d : Fin 768) :
    (V3 m ρ c main_v6 : S1x768.Idx → EReal) (ix2 (0 : Fin 1) d) = ((A.g2 (ix1 d) : ℝ) : EReal) := by
  rw [show (V3 m ρ c main_v6 : S1x768.Idx → EReal) = V1 m ρ c main_v6 from keep0 m ρ c main_v6 (by decide) (by decide)]
  exact entry0_g m ρ c A d

theorem entry1_ph (a : Fin 32) (d : Fin 768) :
    (V3 m ρ c main_arg5 : S32x768.Idx → EReal) (ix2 a d) = ((A.PH (ix2 a d) : ℝ) : EReal) := by
  rw [show (V3 m ρ c main_arg5 : S32x768.Idx → EReal) = V1 m ρ c main_arg5 from keep0 m ρ c main_arg5 (by decide) (by decide)]
  exact entry0_ph m ρ c A a d

theorem entry1_pw (a : Fin 32) (d : Fin 768) :
    (V3 m ρ c main_arg6 : S32x768.Idx → EReal) (ix2 a d) = ((A.PW (ix2 a d) : ℝ) : EReal) := by
  rw [show (V3 m ρ c main_arg6 : S32x768.Idx → EReal) = V1 m ρ c main_arg6 from keep0 m ρ c main_arg6 (by decide) (by decide)]
  exact entry0_pw m ρ c A a d

theorem entry2_tok (i : Fin 4) (r : Fin 1024) (k : Fin 768) :
    (V5 m ρ c main_v20 : S4x1024x768.Idx → EReal) (ix3 i r k)
      = ((Cert.Spec.tokOf A.I (⟨8 + i.val, by have := i.isLt; omega⟩ : Fin 16) r k : ℝ) : EReal) := by
  have e : (V5 m ρ c main_v20 : S4x1024x768.Idx → EReal)
      = shapeCast S4x1024x768 (transpose S4x32x32x3x16x16 [0, 2, 4, 1, 3, 5]
        (shapeCast S4x3x32x16x32x16 (extractStridedSlice S4x3x512x512 ![8, 0, 0, 0] (W4 m ρ c (Proc.devRef .tc main_arg0) : S16x3x512x512.Idx → EReal)
          slices_S16x3x512x512_S4x3x512x512_8_0_0_0) shapeCasts_S4x3x512x512_S4x3x32x16x32x16)
        transposes_S4x3x32x16x32x16_S4x32x32x3x16x16_0_2_4_1_3_5) shapeCasts_S4x32x32x3x16x16_S4x1024x768 := by
    show StableHlo.after hostOps2 _ (Proc.devRef .tc main_v20) = _
    after_results
    all_goals rfl
  rw [e, W4_arg0 m ρ c, A.h0]
  exact tok_chain 8 _ _ i r k _ rfl

theorem entry2_w (k d : Fin 768) :
    (V5 m ρ c main_v4 : S768x768.Idx → EReal) (ix2 k d) = ((A.W (ix2 d k) * A.g1 (ix1 k) : ℝ) : EReal) := by
  rw [show (V5 m ρ c main_v4 : S768x768.Idx → EReal) = V3 m ρ c main_v4 from keep1 m ρ c main_v4 (by decide) (by decide)]
  exact entry1_w m ρ c A k d

theorem entry2_b (d : Fin 768) :
    (V5 m ρ c main_v5 : S1x768.Idx → EReal) (ix2 (0 : Fin 1) d) = ((A.b (ix1 d) : ℝ) : EReal) := by
  rw [show (V5 m ρ c main_v5 : S1x768.Idx → EReal) = V3 m ρ c main_v5 from keep1 m ρ c main_v5 (by decide) (by decide)]
  exact entry1_b m ρ c A d

theorem entry2_g (d : Fin 768) :
    (V5 m ρ c main_v6 : S1x768.Idx → EReal) (ix2 (0 : Fin 1) d) = ((A.g2 (ix1 d) : ℝ) : EReal) := by
  rw [show (V5 m ρ c main_v6 : S1x768.Idx → EReal) = V3 m ρ c main_v6 from keep1 m ρ c main_v6 (by decide) (by decide)]
  exact entry1_g m ρ c A d

theorem entry2_ph (a : Fin 32) (d : Fin 768) :
    (V5 m ρ c main_arg5 : S32x768.Idx → EReal) (ix2 a d) = ((A.PH (ix2 a d) : ℝ) : EReal) := by
  rw [show (V5 m ρ c main_arg5 : S32x768.Idx → EReal) = V3 m ρ c main_arg5 from keep1 m ρ c main_arg5 (by decide) (by decide)]
  exact entry1_ph m ρ c A a d

theorem entry2_pw (a : Fin 32) (d : Fin 768) :
    (V5 m ρ c main_arg6 : S32x768.Idx → EReal) (ix2 a d) = ((A.PW (ix2 a d) : ℝ) : EReal) := by
  rw [show (V5 m ρ c main_arg6 : S32x768.Idx → EReal) = V3 m ρ c main_arg6 from keep1 m ρ c main_arg6 (by decide) (by decide)]
  exact entry1_pw m ρ c A a d

theorem entry3_tok (i : Fin 4) (r : Fin 1024) (k : Fin 768) :
    (V7 m ρ c main_v25 : S4x1024x768.Idx → EReal) (ix3 i r k)
      = ((Cert.Spec.tokOf A.I (⟨12 + i.val, by have := i.isLt; omega⟩ : Fin 16) r k : ℝ) : EReal) := by
  have e : (V7 m ρ c main_v25 : S4x1024x768.Idx → EReal)
      = shapeCast S4x1024x768 (transpose S4x32x32x3x16x16 [0, 2, 4, 1, 3, 5]
        (shapeCast S4x3x32x16x32x16 (extractStridedSlice S4x3x512x512 ![12, 0, 0, 0] (W6 m ρ c (Proc.devRef .tc main_arg0) : S16x3x512x512.Idx → EReal)
          slices_S16x3x512x512_S4x3x512x512_12_0_0_0) shapeCasts_S4x3x512x512_S4x3x32x16x32x16)
        transposes_S4x3x32x16x32x16_S4x32x32x3x16x16_0_2_4_1_3_5) shapeCasts_S4x32x32x3x16x16_S4x1024x768 := by
    show StableHlo.after hostOps3 _ (Proc.devRef .tc main_v25) = _
    after_results
    all_goals rfl
  rw [e, W6_arg0 m ρ c, A.h0]
  exact tok_chain 12 _ _ i r k _ rfl

theorem entry3_w (k d : Fin 768) :
    (V7 m ρ c main_v4 : S768x768.Idx → EReal) (ix2 k d) = ((A.W (ix2 d k) * A.g1 (ix1 k) : ℝ) : EReal) := by
  rw [show (V7 m ρ c main_v4 : S768x768.Idx → EReal) = V5 m ρ c main_v4 from keep2 m ρ c main_v4 (by decide) (by decide)]
  exact entry2_w m ρ c A k d

theorem entry3_b (d : Fin 768) :
    (V7 m ρ c main_v5 : S1x768.Idx → EReal) (ix2 (0 : Fin 1) d) = ((A.b (ix1 d) : ℝ) : EReal) := by
  rw [show (V7 m ρ c main_v5 : S1x768.Idx → EReal) = V5 m ρ c main_v5 from keep2 m ρ c main_v5 (by decide) (by decide)]
  exact entry2_b m ρ c A d

theorem entry3_g (d : Fin 768) :
    (V7 m ρ c main_v6 : S1x768.Idx → EReal) (ix2 (0 : Fin 1) d) = ((A.g2 (ix1 d) : ℝ) : EReal) := by
  rw [show (V7 m ρ c main_v6 : S1x768.Idx → EReal) = V5 m ρ c main_v6 from keep2 m ρ c main_v6 (by decide) (by decide)]
  exact entry2_g m ρ c A d

theorem entry3_ph (a : Fin 32) (d : Fin 768) :
    (V7 m ρ c main_arg5 : S32x768.Idx → EReal) (ix2 a d) = ((A.PH (ix2 a d) : ℝ) : EReal) := by
  rw [show (V7 m ρ c main_arg5 : S32x768.Idx → EReal) = V5 m ρ c main_arg5 from keep2 m ρ c main_arg5 (by decide) (by decide)]
  exact entry2_ph m ρ c A a d

theorem entry3_pw (a : Fin 32) (d : Fin 768) :
    (V7 m ρ c main_arg6 : S32x768.Idx → EReal) (ix2 a d) = ((A.PW (ix2 a d) : ℝ) : EReal) := by
  rw [show (V7 m ρ c main_arg6 : S32x768.Idx → EReal) = V5 m ρ c main_arg6 from keep2 m ρ c main_arg6 (by decide) (by decide)]
  exact entry2_pw m ρ c A a d

end Cert.KernelIdeal.Hand

end
-- ==== Proof.KI.Payload.lean ====
import proofs.«111676_g55894704390624_cont_9to1_m_944_13_alg».proof.Proof.Gen.KernelIdeal.Skeleton
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Finset BigOperators

section Layout
variable {α : Type}

theorem col_of_vec_apply (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    omega)

theorem lanes_of_col_apply (v : S512x1.Idx → α) (h : S512x1.Broadcasts S512x768) (r : Fin 512) (d : Fin 768) :
    broadcastTo S512x768 v h (ix2 r d) = v (ix2 r (0 : Fin 1)) := by
  refine broadcastTo_apply v h (ix2 r d) (ix2 r (0 : Fin 1)) fun ax => ?_
  match ax with
  | ⟨0, _⟩ => rfl
  | ⟨1, _⟩ => rfl

theorem tabH_cast_apply (v : S16x768.Idx → α) (h : S16x768.ShapeCasts S16x1x768) (a : Fin 16) (u : Fin 1) (d : Fin 768) :
    shapeCast S16x1x768 v h (ix3 a u d) = v (ix2 a d) :=
  shapeCast_apply v h _ _ (by
    have hu : u.val = 0 := by omega
    rw [Shape.rowMajor_val_two, Shape.rowMajor_val_three]
    show a.val * 768 + d.val = (a.val * 1 + u.val) * 768 + d.val
    rw [hu]; omega)

theorem tabH_bcast_apply (v : S16x1x768.Idx → α) (h : S16x1x768.Broadcasts S16x32x768) (a : Fin 16) (b : Fin 32) (d : Fin 768) :
    broadcastTo S16x32x768 v h (ix3 a b d) = v (ix3 a (0 : Fin 1) d) := by
  refine broadcastTo_apply v h (ix3 a b d) (ix3 a (0 : Fin 1) d) fun ax => ?_
  match ax with
  | ⟨0, _⟩ => rfl
  | ⟨1, _⟩ => rfl
  | ⟨2, _⟩ => rfl

theorem tabW_bcast_apply (v : S1x32x768.Idx → α) (h : S1x32x768.Broadcasts S16x32x768) (a : Fin 16) (b : Fin 32) (d : Fin 768) :
    broadcastTo S16x32x768 v h (ix3 a b d) = v (ix3 (0 : Fin 1) b d) := by
  refine broadcastTo_apply v h (ix3 a b d) (ix3 (0 : Fin 1) b d) fun ax => ?_
  match ax with
  | ⟨0, _⟩ => rfl
  | ⟨1, _⟩ => rfl
  | ⟨2, _⟩ => rfl

theorem rows_of_grid_apply (v : S16x32x768.Idx → α) (h : S16x32x768.ShapeCasts S512x768) (r : Fin 512) (d : Fin 768) :
    shapeCast S512x768 v h (ix2 r d)
      = v (ix3 (⟨r.val / 32, by have := r.isLt; omega⟩ : Fin 16) (⟨r.val % 32, by omega⟩ : Fin 32) d) :=
  shapeCast_apply v h _ _ (by
    rw [Shape.rowMajor_val_two, Shape.rowMajor_val_three]
    show (r.val / 32 * 32 + r.val % 32) * 768 + d.val = r.val * 768 + d.val
    rw [Nat.div_add_mod' r.val 32])

theorem rowSum_apply (v : FVec Ideal S512x768 .f32) (h : S512x768.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 768, v (ix2 r k) := by
  rw [Ideal.multiReduction_add_single]
  refine Finset.sum_congr rfl fun k _ => congrArg v ?_
  funext ax; apply Fin.ext
  match ax with
  | ⟨0, _⟩ => rfl
  | ⟨1, _⟩ => rfl

end Layout

section Product

theorem dot_lhs0 (j : S512x768.Idx) (k : (dot_S512x768_S768x768_S512x768_1_0_0_1_n_n).contr.Idx) :
    ((dot_S512x768_S768x768_S512x768_1_0_0_1_n_n).lhsIdx j k 0).val = (j 0).val := rfl
theorem dot_lhs1 (j : S512x768.Idx) (k : (dot_S512x768_S768x768_S512x768_1_0_0_1_n_n).contr.Idx) :
    ((dot_S512x768_S768x768_S512x768_1_0_0_1_n_n).lhsIdx j k 1).val = (k ⟨0, by decide⟩).val := rfl
theorem dot_rhs0 (j : S512x768.Idx) (k : (dot_S512x768_S768x768_S512x768_1_0_0_1_n_n).contr.Idx) :
    ((dot_S512x768_S768x768_S512x768_1_0_0_1_n_n).rhsIdx j k 0).val = (k ⟨0, by decide⟩).val := rfl
theorem dot_rhs1 (j : S512x768.Idx) (k : (dot_S512x768_S768x768_S512x768_1_0_0_1_n_n).contr.Idx) :
    ((dot_S512x768_S768x768_S512x768_1_0_0_1_n_n).rhsIdx j k 1).val = (j 1).val := rfl

theorem matmul_zero_apply {φ₁ φ₂ : FTy} (A : FVec Ideal S512x768 φ₁) (B : FVec Ideal S768x768 φ₂) (r : Fin 512) (d : Fin 768) :
    matmul dot_S512x768_S768x768_S512x768_1_0_0_1_n_n none A B (constant S512x768 .f32 0x00000000#32) (ix2 r d)
      = ∑ k : Fin 768, A (ix2 r k) * B (ix2 k d) := by
  show FloatOps.matmul _ none A B _ (ix2 r d) = _
  rw [Ideal.matmul_constant_zero_apply, ← Equiv.sum_comp (contrEquiv1 dot_S512x768_S768x768_S512x768_1_0_0_1_n_n 768 rfl rfl).symm]
  refine Finset.sum_congr rfl fun c _ => ?_
  have hc := contrEquiv1_symm_val dot_S512x768_S768x768_S512x768_1_0_0_1_n_n 768 rfl rfl c
  have hl : (dot_S512x768_S768x768_S512x768_1_0_0_1_n_n).lhsIdx (ix2 r d) ((contrEquiv1 dot_S512x768_S768x768_S512x768_1_0_0_1_n_n 768 rfl rfl).symm c) = ix2 r c := by
    funext ax; apply Fin.ext
    match ax with
    | ⟨0, _⟩ => exact dot_lhs0 _ _
    | ⟨1, _⟩ => exact (dot_lhs1 _ _).trans hc
  have hr : (dot_S512x768_S768x768_S512x768_1_0_0_1_n_n).rhsIdx (ix2 r d) ((contrEquiv1 dot_S512x768_S768x768_S512x768_1_0_0_1_n_n 768 rfl rfl).symm c) = ix2 c d := by
    funext ax; apply Fin.ext
    match ax with
    | ⟨0, _⟩ => exact (dot_rhs0 _ _).trans hc
    | ⟨1, _⟩ => exact dot_rhs1 _ _
  rw [hl, hr]

end Product

section Stages
open Cert.LibCoe

theorem ofBits_768 : Ideal.ofBits .f32 0x44400000#32 = ((768 : ℝ) : EReal) := by
  simp [Ideal.ofBits, Ideal.ieee, -EReal.coe_mul]; norm_num

theorem mean_col_apply (v : FVec Ideal S512x768 .f32) (Y : Fin 512 → Fin 768 → ℝ)
    (hv : ∀ (r : Fin 512) (k : Fin 768), v (ix2 r k) = ((Y r k : ℝ) : EReal))
    (h : S512x768.Reduces [1] S512) (hφ : FKind.Formats .f32)
    (hacc : (0x00000000#32 : BitVec 32) = FKind.add.neutral .f32 hφ) (hc : S512.ShapeCasts S512x1) (r : Fin 512) (u : Fin 1) :
    divf (shapeCast S512x1 (multiReduction .add [1] S512 v 0x00000000#32 h hφ hacc) hc)
        (broadcast S512x1 (Scalar.ofBits .f32 0x44400000#32)) (ix2 r u)
      = ((Cert.Spec.mean (Y r) : ℝ) : EReal) := by
  rw [divf_apply, broadcast_apply, col_of_vec_apply, rowSum_apply]
  simp only [hv]
  rw [sum_coe]
  show Ideal.div _ (Ideal.ofBits .f32 0x44400000#32) = _
  rw [ofBits_768, div_coe_coe _ (by norm_num)]
  rfl

theorem var_col_apply (v : FVec Ideal S512x768 .f32) (Y : Fin 512 → Fin 768 → ℝ)
    (hv : ∀ (r : Fin 512) (k : Fin 768), v (ix2 r k) = ((Y r k : ℝ) : EReal)) (m : FVec Ideal S512x1 .f32)
    (hm : ∀ (r : Fin 512) (u : Fin 1), m (ix2 r u) = ((Cert.Spec.mean (Y r) : ℝ) : EReal))
    (h : S512x768.Reduces [1] S512) (hφ : FKind.Formats .f32)
    (hacc : (0x00000000#32 : BitVec 32) = FKind.add.neutral .f32 hφ) (hc : S512.ShapeCasts S512x1) (r : Fin 512) (u : Fin 1) :
    subf (divf (shapeCast S512x1 (multiReduction .add [1] S512 (mulf v v) 0x00000000#32 h hφ hacc) hc)
          (broadcast S512x1 (Scalar.ofBits .f32 0x44400000#32))) (mulf m m) (ix2 r u)
      = ((Cert.Spec.varK (Y r) : ℝ) : EReal) := by
  rw [subf_apply, divf_apply, broadcast_apply, col_of_vec_apply, rowSum_apply, mulf_apply, hm]
  simp only [mulf_apply, hv, mul_coe]
  rw [sum_coe]
  show Ideal.div _ (Ideal.ofBits .f32 0x44400000#32) - _ = _
  rw [ofBits_768, div_coe_coe _ (by norm_num), sub_coe]
  rfl

theorem rs_col_apply (Y : Fin 512 → Fin 768 → ℝ) (q : FVec Ideal S512x1 .f32)
    (hq : ∀ (r : Fin 512) (u : Fin 1), q (ix2 r u) = ((Cert.Spec.varK (Y r) : ℝ) : EReal)) (r : Fin 512) (u : Fin 1) :
    rsqrt (addf q (broadcast S512x1 (Scalar.ofBits .f32 0x3727C5AC#32))) (ix2 r u)
      = ((Cert.Spec.rsK (Y r) : ℝ) : EReal) := by
  show Ideal.rsqrt (q (ix2 r u) + Ideal.ofBits .f32 0x3727C5AC#32) = _
  rw [hq, ofBits_eps, add_coe, rsqrt_coe_pos (Cert.Spec.varK_eps_pos _)]
  rfl

theorem norm_apply (v : FVec Ideal S512x768 .f32) (Y : Fin 512 → Fin 768 → ℝ)
    (hv : ∀ (r : Fin 512) (k : Fin 768), v (ix2 r k) = ((Y r k : ℝ) : EReal)) (m q : FVec Ideal S512x1 .f32)
    (hm : ∀ (r : Fin 512) (u : Fin 1), m (ix2 r u) = ((Cert.Spec.mean (Y r) : ℝ) : EReal))
    (hq : ∀ (r : Fin 512) (u : Fin 1), q (ix2 r u) = ((Cert.Spec.varK (Y r) : ℝ) : EReal))
    (hb : S512x1.Broadcasts S512x768) (r : Fin 512) (d : Fin 768) :
    subf (mulf v (broadcastTo S512x768 (rsqrt (addf q (broadcast S512x1 (Scalar.ofBits .f32 0x3727C5AC#32)))) hb))
        (broadcastTo S512x768 (mulf m (rsqrt (addf q (broadcast S512x1 (Scalar.ofBits .f32 0x3727C5AC#32))))) hb) (ix2 r d)
      = ((Cert.Spec.nK (Y r) d : ℝ) : EReal) := by
  rw [subf_apply, mulf_apply, lanes_of_col_apply, lanes_of_col_apply, mulf_apply, rs_col_apply Y q hq, hv, hm,
    mul_coe, mul_coe, sub_coe]
  rfl

end Stages

section Rows
open Cert.LibCoe

theorem lin_apply (n : FVec Ideal S512x768 .f32) (Z : Fin 512 → Fin 768 → ℝ)
    (hn : ∀ (r : Fin 512) (k : Fin 768), n (ix2 r k) = ((Z r k : ℝ) : EReal))
    (x1 : Vec Ideal S768x768 .bf16) (Wg : Fin 768 → Fin 768 → ℝ) (h1 : ∀ (k d : Fin 768), x1 (ix2 k d) = ((Wg k d : ℝ) : EReal))
    (x2 : Vec Ideal S1x768 .f32) (bl : Fin 768 → ℝ) (h2 : ∀ d : Fin 768, x2 (ix2 (0 : Fin 1) d) = ((bl d : ℝ) : EReal))
    (r : Fin 512) (d : Fin 768) :
    addf (matmul dot_S512x768_S768x768_S512x768_1_0_0_1_n_n none (truncf .bf16 n bitsLt_bf16_f32)
            (shapeCast S768x768 x1 shapeCasts_S768x768_S768x768 : FVec Ideal S768x768 .bf16) (constant S512x768 .f32 0x00000000#32))
        (broadcastTo S512x768
          (shapeCast S1x768 (shapeCast S768 x2 shapeCasts_S1x768_S768 : FVec Ideal S768 .f32) shapeCasts_S768_S1x768 : FVec Ideal S1x768 .f32)
          broadcasts_S1x768_S512x768) (ix2 r d)
      = ((Cert.Spec.linK (Z r) Wg bl d : ℝ) : EReal) := by
  rw [addf_apply, shapeCast_shapeCast, shapeCast_self, broadcastTo_1b_ab_apply, h2, matmul_zero_apply]
  simp only [truncf_apply, hn, h1, mul_coe]
  rw [sum_coe, add_coe]
  rfl

theorem pos_apply (x4 : Vec Ideal S16x768 .f32) (x5 : Vec Ideal S32x768 .f32)
    (Ph : Fin 16 → Fin 768 → ℝ) (Pw : Fin 32 → Fin 768 → ℝ)
    (h4 : ∀ (a : Fin 16) (d : Fin 768), x4 (ix2 a d) = ((Ph a d : ℝ) : EReal))
    (h5 : ∀ (a : Fin 32) (d : Fin 768), x5 (ix2 a d) = ((Pw a d : ℝ) : EReal)) (r : Fin 512) (d : Fin 768) :
    shapeCast S512x768
        (addf (broadcastTo S16x32x768 (shapeCast S16x1x768 x4 shapeCasts_S16x768_S16x1x768 : FVec Ideal S16x1x768 .f32)
            broadcasts_S16x1x768_S16x32x768)
          (broadcastTo S16x32x768 (shapeCast S1x32x768 x5 shapeCasts_S32x768_S1x32x768 : FVec Ideal S1x32x768 .f32)
            broadcasts_S1x32x768_S16x32x768))
        shapeCasts_S16x32x768_S512x768 (ix2 r d)
      = ((Ph (⟨r.val / 32, by have := r.isLt; omega⟩ : Fin 16) d + Pw (⟨r.val % 32, by omega⟩ : Fin 32) d : ℝ) : EReal) := by
  rw [rows_of_grid_apply, addf_apply, tabH_bcast_apply, tabW_bcast_apply, tabH_cast_apply, shapeCast_ab_1ab_apply, h4, h5,
    add_coe]

end Rows

section Body
open Cert.LibCoe

theorem tok_apply (x0 : Vec Ideal S1x512x768 .f32) (X : Fin 512 → Fin 768 → ℝ)
    (h0 : ∀ (r : Fin 512) (k : Fin 768), x0 (ix3 (0 : Fin 1) r k) = ((X r k : ℝ) : EReal)) (r : Fin 512) (k : Fin 768) :
    (shapeCast S512x768 x0 shapeCasts_S1x512x768_S512x768 : FVec Ideal S512x768 .f32) (ix2 r k) = ((X r k : ℝ) : EReal) := by
  rw [shapeCast_1ab_ab_apply, h0]

theorem pay2_val (x0 : Vec Ideal S1x512x768 .f32) (x1 : Vec Ideal S768x768 .bf16) (x2 : Vec Ideal S1x768 .f32)
    (X : Fin 512 → Fin 768 → ℝ) (Wg : Fin 768 → Fin 768 → ℝ) (bl : Fin 768 → ℝ)
    (h0 : ∀ (r : Fin 512) (k : Fin 768), x0 (ix3 (0 : Fin 1) r k) = ((X r k : ℝ) : EReal))
    (h1 : ∀ (k d : Fin 768), x1 (ix2 k d) = ((Wg k d : ℝ) : EReal))
    (h2 : ∀ d : Fin 768, x2 (ix2 (0 : Fin 1) d) = ((bl d : ℝ) : EReal)) (r : Fin 512) (d : Fin 768) :
    k0_pay2 (F := Ideal) x0 x1 x2 (ix2 r d) = ((Cert.Spec.linK (Cert.Spec.nK (X r)) Wg bl d : ℝ) : EReal) := by
  unfold k0_pay2
  refine lin_apply _ (fun r => Cert.Spec.nK (X r)) (fun r k => ?_) x1 Wg h1 x2 bl h2 r d
  refine norm_apply _ X (tok_apply x0 X h0) _ _ (fun r u => ?_) (fun r u => ?_) _ r k
  · exact mean_col_apply _ X (tok_apply x0 X h0) _ _ _ _ r u
  · exact var_col_apply _ X (tok_apply x0 X h0) _
      (fun r u => mean_col_apply _ X (tok_apply x0 X h0) _ _ _ _ r u) _ _ _ _ r u

end Body

section Body2
open Cert.LibCoe

theorem pay3_val (x0 : Vec Ideal S1x512x768 .f32) (x1 : Vec Ideal S768x768 .bf16) (x2 : Vec Ideal S1x768 .f32)
    (X : Fin 512 → Fin 768 → ℝ) (Wg : Fin 768 → Fin 768 → ℝ) (bl : Fin 768 → ℝ)
    (h0 : ∀ (r : Fin 512) (k : Fin 768), x0 (ix3 (0 : Fin 1) r k) = ((X r k : ℝ) : EReal))
    (h1 : ∀ (k d : Fin 768), x1 (ix2 k d) = ((Wg k d : ℝ) : EReal))
    (h2 : ∀ d : Fin 768, x2 (ix2 (0 : Fin 1) d) = ((bl d : ℝ) : EReal)) (r : Fin 512) (u : Fin 1) :
    k0_pay3 (F := Ideal) x0 x1 x2 (ix2 r u)
      = ((Cert.Spec.mean (Cert.Spec.linK (Cert.Spec.nK (X r)) Wg bl) : ℝ) : EReal) := by
  unfold k0_pay3
  exact mean_col_apply _ (fun r => Cert.Spec.linK (Cert.Spec.nK (X r)) Wg bl) (pay2_val x0 x1 x2 X Wg bl h0 h1 h2) _ _ _ _ r u

theorem pay4_val (x0 : Vec Ideal S1x512x768 .f32) (x1 : Vec Ideal S768x768 .bf16) (x2 : Vec Ideal S1x768 .f32)
    (X : Fin 512 → Fin 768 → ℝ) (Wg : Fin 768 → Fin 768 → ℝ) (bl : Fin 768 → ℝ)
    (h0 : ∀ (r : Fin 512) (k : Fin 768), x0 (ix3 (0 : Fin 1) r k) = ((X r k : ℝ) : EReal))
    (h1 : ∀ (k d : Fin 768), x1 (ix2 k d) = ((Wg k d : ℝ) : EReal))
    (h2 : ∀ d : Fin 768, x2 (ix2 (0 : Fin 1) d) = ((bl d : ℝ) : EReal)) (r : Fin 512) (u : Fin 1) :
    k0_pay4 (F := Ideal) x0 x1 x2 (ix2 r u)
      = ((Cert.Spec.varK (Cert.Spec.linK (Cert.Spec.nK (X r)) Wg bl) : ℝ) : EReal) := by
  unfold k0_pay4
  exact var_col_apply _ (fun r => Cert.Spec.linK (Cert.Spec.nK (X r)) Wg bl) (pay2_val x0 x1 x2 X Wg bl h0 h1 h2) _
    (pay3_val x0 x1 x2 X Wg bl h0 h1 h2) _ _ _ _ r u

theorem out_apply (v : FVec Ideal S512x768 .f32) (Y : Fin 512 → Fin 768 → ℝ)
    (hv : ∀ (r : Fin 512) (k : Fin 768), v (ix2 r k) = ((Y r k : ℝ) : EReal)) (m q : FVec Ideal S512x1 .f32)
    (hm : ∀ (r : Fin 512) (u : Fin 1), m (ix2 r u) = ((Cert.Spec.mean (Y r) : ℝ) : EReal))
    (hq : ∀ (r : Fin 512) (u : Fin 1), q (ix2 r u) = ((Cert.Spec.varK (Y r) : ℝ) : EReal))
    (x4 : Vec Ideal S16x768 .f32) (x5 : Vec Ideal S32x768 .f32) (x3 : Vec Ideal S1x768 .f32)
    (Ph : Fin 16 → Fin 768 → ℝ) (Pw : Fin 32 → Fin 768 → ℝ) (g2 : Fin 768 → ℝ)
    (h4 : ∀ (a : Fin 16) (d : Fin 768), x4 (ix2 a d) = ((Ph a d : ℝ) : EReal))
    (h5 : ∀ (a : Fin 32) (d : Fin 768), x5 (ix2 a d) = ((Pw a d : ℝ) : EReal))
    (h3 : ∀ d : Fin 768, x3 (ix2 (0 : Fin 1) d) = ((g2 d : ℝ) : EReal)) (r : Fin 512) (d : Fin 768) :
    k0_pay1 (F := Ideal) v m q x4 x5 x3 (ix3 (0 : Fin 1) r d)
      = ((Cert.Spec.nK (Y r) d * g2 d
          + (Ph (⟨r.val / 32, by have := r.isLt; omega⟩ : Fin 16) d + Pw (⟨r.val % 32, by omega⟩ : Fin 32) d) : ℝ) : EReal) := by
  have e1 := norm_apply v Y hv m q hm hq broadcasts_S512x1_S512x768 r d
  have e2 := pos_apply x4 x5 Ph Pw h4 h5 r d
  have e3 : (broadcastTo S512x768
        (shapeCast S1x768 (shapeCast S768 x3 shapeCasts_S1x768_S768 : FVec Ideal S768 .f32) shapeCasts_S768_S1x768 : FVec Ideal S1x768 .f32)
        broadcasts_S1x768_S512x768 : FVec Ideal S512x768 .f32) (ix2 r d) = ((g2 d : ℝ) : EReal) := by
    rw [shapeCast_shapeCast, broadcastTo_1b_ab_apply, h3]
  unfold k0_pay1
  refine (shapeCast_ab_1ab_apply _ _ (0 : Fin 1) r d).trans ?_
  rw [addf_apply, mulf_apply, e1, e2, e3, mul_coe, add_coe]

end Body2

theorem pay0_apply (x0 : Vec Ideal S1x512x768 .f32) (x1 : Vec Ideal S768x768 .bf16) (x2 x3 : Vec Ideal S1x768 .f32)
    (x4 : Vec Ideal S16x768 .f32) (x5 : Vec Ideal S32x768 .f32)
    (X : Fin 512 → Fin 768 → ℝ) (Wg : Fin 768 → Fin 768 → ℝ) (bl g2 : Fin 768 → ℝ) (Ph : Fin 16 → Fin 768 → ℝ) (Pw : Fin 32 → Fin 768 → ℝ)
    (h0 : ∀ (r : Fin 512) (k : Fin 768), x0 (ix3 (0 : Fin 1) r k) = ((X r k : ℝ) : EReal))
    (h1 : ∀ (k d : Fin 768), x1 (ix2 k d) = ((Wg k d : ℝ) : EReal))
    (h2 : ∀ d : Fin 768, x2 (ix2 (0 : Fin 1) d) = ((bl d : ℝ) : EReal))
    (h3 : ∀ d : Fin 768, x3 (ix2 (0 : Fin 1) d) = ((g2 d : ℝ) : EReal))
    (h4 : ∀ (a : Fin 16) (d : Fin 768), x4 (ix2 a d) = ((Ph a d : ℝ) : EReal))
    (h5 : ∀ (a : Fin 32) (d : Fin 768), x5 (ix2 a d) = ((Pw a d : ℝ) : EReal))
    (r : Fin 512) (d : Fin 768) :
    k0_pay1 (F := Ideal) (k0_pay2 x0 x1 x2) (k0_pay3 x0 x1 x2) (k0_pay4 x0 x1 x2) x4 x5 x3 (ix3 (0 : Fin 1) r d)
      = ((Cert.Spec.rowK (X r) Wg bl g2
          (fun d => Ph (⟨r.val / 32, by have := r.isLt; omega⟩ : Fin 16) d + Pw (⟨r.val % 32, by omega⟩ : Fin 32) d) d : ℝ) : EReal) :=
  out_apply (k0_pay2 x0 x1 x2) (fun r => Cert.Spec.linK (Cert.Spec.nK (X r)) Wg bl) (pay2_val x0 x1 x2 X Wg bl h0 h1 h2)
    (k0_pay3 x0 x1 x2) (k0_pay4 x0 x1 x2) (pay3_val x0 x1 x2 X Wg bl h0 h1 h2) (pay4_val x0 x1 x2 X Wg bl h0 h1 h2)
    x4 x5 x3 Ph Pw g2 h4 h5 h3 r d

end Cert.KernelIdeal.Hand

end
-- ==== Proof.KI.Blocks0.lean ====
import proofs.«111676_g55894704390624_cont_9to1_m_944_13_alg».proof.Proof.KI.Region0
import proofs.«111676_g55894704390624_cont_9to1_m_944_13_alg».proof.Proof.KI.Payload
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz0_3 : (![0, 0, 0] : Fin 3 → Nat) = fun _ => 0 := funext fun a => by fin_cases a <;> rfl
theorem hz0_2 : (![0, 0] : Fin 2 → Nat) = fun _ => 0 := funext fun a => by fin_cases a <;> rfl

theorem idx0_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val % 2 ∧ win0_4.index t (1 : Fin 2) = 0
    ∧ win0_5.index t (0 : Fin 2) = 0 ∧ win0_5.index t (1 : Fin 2) = 0
    ∧ win0_6.index t (0 : Fin 3) = t.val / 2 ∧ win0_6.index t (1 : Fin 3) = t.val % 2 ∧ win0_6.index t (2 : Fin 3) = 0 :=
  (by decide +kernel : ∀ t : Fin grid0.N, _)

section
variable (V : (c : Dev nD) → (b : Ref sig .tc) → Buf (Elt Ideal) ((c : Thread nD τ).loc b)) (c : Dev nD)

theorem iblk0_0_apply (T : Fin 4 → Fin 1024 → Fin 768 → ℝ)
    (hT : ∀ (i : Fin 4) (r : Fin 1024) (k : Fin 768), (V c main_v10 : S4x1024x768.Idx → EReal) (ix3 i r k) = ((T i r k : ℝ) : EReal))
    (t : Fin cfg0.N) (r : Fin 512) (k : Fin 768) (i : Fin 4) (q : Fin 1024)
    (hi : i.val = t.val / 2) (hq : q.val = (t.val % 2) * 512 + r.val) :
    (iblk0 (F := Ideal) V c 0 t : Vec Ideal S1x512x768 .f32) (ix3 (0 : Fin 1) r k) = ((T i q k : ℝ) : EReal) := by
  obtain ⟨e0, e1, e2, -⟩ := idx0_facts t
  refine Eq.trans ?_ (hT i q k)
  unfold iblk0
  rw [View.read_apply]
  show V c main_v10 _ = V c main_v10 _
  congr 1
  funext a; apply Fin.ext
  match a with
  | ⟨0, _⟩ => show win0_0.index t (0 : Fin 3) * 1 + 1 * (0 : Nat) = i.val; omega
  | ⟨1, _⟩ => show win0_0.index t (1 : Fin 3) * 512 + 1 * r.val = q.val; omega
  | ⟨2, _⟩ => show win0_0.index t (2 : Fin 3) * 768 + 1 * k.val = k.val; omega

theorem iblk0_1_apply (Wg : Fin 768 → Fin 768 → ℝ)
    (hW : ∀ (k d : Fin 768), (V c main_v4 : S768x768.Idx → EReal) (ix2 k d) = ((Wg k d : ℝ) : EReal))
    (t : Fin cfg0.N) (k d : Fin 768) :
    (iblk0 (F := Ideal) V c 1 t : Vec Ideal S768x768 .bf16) (ix2 k d) = ((Wg k d : ℝ) : EReal) := by
  obtain ⟨-, -, -, e0, e1, -⟩ := idx0_facts t
  refine Eq.trans ?_ (hW k d)
  unfold iblk0
  rw [View.read_apply]
  show V c main_v4 _ = V c main_v4 _
  congr 1
  funext a; apply Fin.ext
  match a with
  | ⟨0, _⟩ => show win0_1.index t (0 : Fin 2) * 768 + 1 * k.val = k.val; omega
  | ⟨1, _⟩ => show win0_1.index t (1 : Fin 2) * 768 + 1 * d.val = d.val; omega

theorem iblk0_2_apply (bl : Fin 768 → ℝ)
    (hb : ∀ d : Fin 768, (V c main_v5 : S1x768.Idx → EReal) (ix2 (0 : Fin 1) d) = ((bl d : ℝ) : EReal))
    (t : Fin cfg0.N) (d : Fin 768) :
    (iblk0 (F := Ideal) V c 2 t : Vec Ideal S1x768 .f32) (ix2 (0 : Fin 1) d) = ((bl d : ℝ) : EReal) := by
  obtain ⟨-, -, -, -, -, e0, e1, -⟩ := idx0_facts t
  refine Eq.trans ?_ (hb d)
  unfold iblk0
  rw [View.read_apply]
  show V c main_v5 _ = V c main_v5 _
  congr 1
  funext a; apply Fin.ext
  match a with
  | ⟨0, _⟩ => show win0_2.index t (0 : Fin 2) * 1 + 1 * (0 : Nat) = 0; omega
  | ⟨1, _⟩ => show win0_2.index t (1 : Fin 2) * 768 + 1 * d.val = d.val; omega

theorem iblk0_3_apply (g2 : Fin 768 → ℝ)
    (hg : ∀ d : Fin 768, (V c main_v6 : S1x768.Idx → EReal) (ix2 (0 : Fin 1) d) = ((g2 d : ℝ) : EReal))
    (t : Fin cfg0.N) (d : Fin 768) :
    (iblk0 (F := Ideal) V c 3 t : Vec Ideal S1x768 .f32) (ix2 (0 : Fin 1) d) = ((g2 d : ℝ) : EReal) := by
  obtain ⟨-, -, -, -, -, -, -, e0, e1, -⟩ := idx0_facts t
  refine Eq.trans ?_ (hg d)
  unfold iblk0
  rw [View.read_apply]
  show V c main_v6 _ = V c main_v6 _
  congr 1
  funext a; apply Fin.ext
  match a with
  | ⟨0, _⟩ => show win0_3.index t (0 : Fin 2) * 1 + 1 * (0 : Nat) = 0; omega
  | ⟨1, _⟩ => show win0_3.index t (1 : Fin 2) * 768 + 1 * d.val = d.val; omega

theorem iblk0_4_apply (PH : Fin 32 → Fin 768 → ℝ)
    (hPH : ∀ (a : Fin 32) (d : Fin 768), (V c main_arg5 : S32x768.Idx → EReal) (ix2 a d) = ((PH a d : ℝ) : EReal))
    (t : Fin cfg0.N) (a : Fin 16) (d : Fin 768) (q : Fin 32) (hq : q.val = (t.val % 2) * 16 + a.val) :
    (iblk0 (F := Ideal) V c 4 t : Vec Ideal S16x768 .f32) (ix2 a d) = ((PH q d : ℝ) : EReal) := by
  obtain ⟨-, -, -, -, -, -, -, -, -, e0, e1, -⟩ := idx0_facts t
  refine Eq.trans ?_ (hPH q d)
  unfold iblk0
  rw [View.read_apply]
  show V c main_arg5 _ = V c main_arg5 _
  congr 1
  funext x; apply Fin.ext
  match x with
  | ⟨0, _⟩ => show win0_4.index t (0 : Fin 2) * 16 + 1 * a.val = q.val; omega
  | ⟨1, _⟩ => show win0_4.index t (1 : Fin 2) * 768 + 1 * d.val = d.val; omega

theorem iblk0_5_apply (PW : Fin 32 → Fin 768 → ℝ)
    (hPW : ∀ (a : Fin 32) (d : Fin 768), (V c main_arg6 : S32x768.Idx → EReal) (ix2 a d) = ((PW a d : ℝ) : EReal))
    (t : Fin cfg0.N) (a : Fin 32) (d : Fin 768) :
    (iblk0 (F := Ideal) V c 5 t : Vec Ideal S32x768 .f32) (ix2 a d) = ((PW a d : ℝ) : EReal) := by
  obtain ⟨-, -, -, -, -, -, -, -, -, -, -, e0, e1, -⟩ := idx0_facts t
  refine Eq.trans ?_ (hPW a d)
  unfold iblk0
  rw [View.read_apply]
  show V c main_arg6 _ = V c main_arg6 _
  congr 1
  funext x; apply Fin.ext
  match x with
  | ⟨0, _⟩ => show win0_5.index t (0 : Fin 2) * 32 + 1 * a.val = a.val; omega
  | ⟨1, _⟩ => show win0_5.index t (1 : Fin 2) * 768 + 1 * d.val = d.val; omega

end

def G0 (T : Fin 4 → Fin 1024 → Fin 768 → ℝ) (Wg : Fin 768 → Fin 768 → ℝ) (bl g2 : Fin 768 → ℝ) (PH PW : Fin 32 → Fin 768 → ℝ) :
    S4x1024x768.Idx → EReal := fun j =>
  ((Cert.Spec.rowK (T (j 0) (j 1)) Wg bl g2
    (fun d => PH (⟨(j 1).val / 32, by have h : (j 1).val < 1024 := (j 1).isLt; omega⟩ : Fin 32) d
      + PW (⟨(j 1).val % 32, by omega⟩ : Fin 32) d) (j 2) : ℝ) : EReal)

theorem flushed0_eq (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v10 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (t : Fin cfg0.N) :
    (dat0 (F := Ideal) V c).flushed 6 t = ((cfg0.win 6).blk t).view.read (Elt Ideal) (G0 T Wg bl g2 PH PW) := by
  have hN : cfg0.N = 8 := by decide
  have htlt : t.val < 8 := hN ▸ t.isLt
  show (cfg0.win 6).cut (grid0.coords t) ((dat0 V c).after 6 t) = _
  rw [after0_6]
  unfold out0_6
  rw [View.canon_unit_zero hz0_3]
  simp only [View.ld_unit_zero (S := S1x512x768) hz0_3, View.ld_unit_zero (S := S768x768) hz0_2,
    View.ld_unit_zero (S := S1x768) hz0_2, View.ld_unit_zero (S := S16x768) hz0_2, View.ld_unit_zero (S := S32x768) hz0_2]
  funext y
  obtain ⟨r, d, rfl⟩ : ∃ (r : Fin 512) (d : Fin 768), y = (ix3 (0 : Fin 1) r d : S1x512x768.Idx) :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  obtain ⟨i, hi⟩ : ∃ i : Fin 4, i.val = t.val / 2 := ⟨⟨t.val / 2, by omega⟩, rfl⟩
  have hrlt := r.isLt
  have hqlt : (t.val % 2) * 512 + r.val < 1024 := by omega
  have hpay := pay0_apply (iblk0 V c 0 t) (iblk0 V c 1 t) (iblk0 V c 2 t) (iblk0 V c 3 t) (iblk0 V c 4 t) (iblk0 V c 5 t)
    (fun r k => T i (⟨(t.val % 2) * 512 + r.val, by have := r.isLt; omega⟩ : Fin 1024) k) Wg bl g2
    (fun a d => PH (⟨(t.val % 2) * 16 + a.val, by have := a.isLt; omega⟩ : Fin 32) d) PW
    (fun r k => iblk0_0_apply V c T hT t r k i _ hi rfl)
    (fun k d => iblk0_1_apply V c Wg hW t k d)
    (fun d => iblk0_2_apply V c bl hb t d)
    (fun d => iblk0_3_apply V c g2 hg t d)
    (fun a d => iblk0_4_apply V c PH hPH t a d _ rfl)
    (fun a d => iblk0_5_apply V c PW hPW t a d)
    r d
  refine hpay.trans ?_
  rw [View.read_apply]
  have hemb : ((cfg0.win 6).blk t).view.emb (ix3 (0 : Fin 1) r d : S1x512x768.Idx)
      = (ix3 i (⟨(t.val % 2) * 512 + r.val, hqlt⟩ : Fin 1024) d : S4x1024x768.Idx) := by
    obtain ⟨-, -, -, -, -, -, -, -, -, -, -, -, -, e0, e1, e2⟩ := idx0_facts t
    funext a; apply Fin.ext
    match a with
    | ⟨0, _⟩ => show win0_6.index t (0 : Fin 3) * 1 + 1 * (0 : Nat) = i.val; omega
    | ⟨1, _⟩ => show win0_6.index t (1 : Fin 3) * 512 + 1 * r.val = (t.val % 2) * 512 + r.val; omega
    | ⟨2, _⟩ => show win0_6.index t (2 : Fin 3) * 768 + 1 * d.val = d.val; omega
  show _ = G0 T Wg bl g2 PH PW (((cfg0.win 6).blk t).view.emb (ix3 (0 : Fin 1) r d : S1x512x768.Idx))
  rw [hemb]
  have h1 : (⟨(t.val % 2) * 16 + r.val / 32, by omega⟩ : Fin 32) = ⟨((t.val % 2) * 512 + r.val) / 32, by omega⟩ :=
    Fin.ext (by show (t.val % 2) * 16 + r.val / 32 = ((t.val % 2) * 512 + r.val) / 32; omega)
  have h2 : (⟨r.val % 32, by omega⟩ : Fin 32) = ⟨((t.val % 2) * 512 + r.val) % 32, by omega⟩ :=
    Fin.ext (by show r.val % 32 = ((t.val % 2) * 512 + r.val) % 32; omega)
  refine congrArg (fun P : Fin 768 → ℝ =>
    ((Cert.Spec.rowK (T i (⟨(t.val % 2) * 512 + r.val, hqlt⟩ : Fin 1024)) Wg bl g2 P d : ℝ) : EReal)) (funext fun d' => ?_)
  exact congrArg₂ (· + ·) (congrArg (fun a => PH a d') h1) (congrArg (fun a => PW a d') h2)

theorem region0_value (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v10 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (i : Fin 4) (r : Fin 1024) (d : Fin 768) :
    ((dat0 (F := Ideal) V c).arrAt 6 cfg0.N : S4x1024x768.Idx → EReal) (ix3 i r d)
      = ((Cert.Spec.rowK (T i r) Wg bl g2
          (fun d => PH (⟨r.val / 32, by have := r.isLt; omega⟩ : Fin 32) d + PW (⟨r.val % 32, by omega⟩ : Fin 32) d) d : ℝ) : EReal) := by
  have hN : cfg0.N = 8 := by decide
  have hr := r.isLt
  have hi := i.isLt
  obtain ⟨t, ht⟩ : ∃ t : Fin cfg0.N, t.val = 2 * i.val + r.val / 512 := ⟨⟨2 * i.val + r.val / 512, by omega⟩, rfl⟩
  refine (dat0 (F := Ideal) V c).arrAt_apply_of_mem 6 (G0 T Wg bl g2 PH PW)
    (fun t _ => flushed0_eq V c T Wg bl g2 PH PW hT hW hb hg hPH hPW t) cfg0.N t (ix3 i r d) t.isLt (flush0_6 t) ?_
  show (ix3 i r d : S4x1024x768.Idx) ∈ ((View.whole main_v11).slice (win0_6.rect t)).set
  rw [View.set_slice_whole, Rect.mem_set_unit]
  obtain ⟨-, -, -, -, -, -, -, -, -, -, -, -, -, e0, e1, e2⟩ := idx0_facts t
  intro a
  match a with
  | ⟨0, _⟩ => show win0_6.index t (0 : Fin 3) * 1 ≤ i.val ∧ i.val < win0_6.index t (0 : Fin 3) * 1 + 1; omega
  | ⟨1, _⟩ => show win0_6.index t (1 : Fin 3) * 512 ≤ r.val ∧ r.val < win0_6.index t (1 : Fin 3) * 512 + 512; omega
  | ⟨2, _⟩ => show win0_6.index t (2 : Fin 3) * 768 ≤ d.val ∧ d.val < win0_6.index t (2 : Fin 3) * 768 + 768; have := d.isLt; omega

end Cert.KernelIdeal.Hand

end
-- ==== Proof.KI.Blocks1.lean ====
import proofs.«111676_g55894704390624_cont_9to1_m_944_13_alg».proof.Proof.KI.Region1
import proofs.«111676_g55894704390624_cont_9to1_m_944_13_alg».proof.Proof.KI.Payload
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz1_3 : (![0, 0, 0] : Fin 3 → Nat) = fun _ => 0 := funext fun a => by fin_cases a <;> rfl
theorem hz1_2 : (![0, 0] : Fin 2 → Nat) = fun _ => 0 := funext fun a => by fin_cases a <;> rfl

theorem idx1_facts : ∀ t : Fin cfg1.N,
    win1_0.index t (0 : Fin 3) = t.val / 2 ∧ win1_0.index t (1 : Fin 3) = t.val % 2 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val % 2 ∧ win1_4.index t (1 : Fin 2) = 0
    ∧ win1_5.index t (0 : Fin 2) = 0 ∧ win1_5.index t (1 : Fin 2) = 0
    ∧ win1_6.index t (0 : Fin 3) = t.val / 2 ∧ win1_6.index t (1 : Fin 3) = t.val % 2 ∧ win1_6.index t (2 : Fin 3) = 0 :=
  (by decide +kernel : ∀ t : Fin grid1.N, _)

section
variable (V : (c : Dev nD) → (b : Ref sig .tc) → Buf (Elt Ideal) ((c : Thread nD τ).loc b)) (c : Dev nD)

theorem iblk1_0_apply (T : Fin 4 → Fin 1024 → Fin 768 → ℝ)
    (hT : ∀ (i : Fin 4) (r : Fin 1024) (k : Fin 768), (V c main_v15 : S4x1024x768.Idx → EReal) (ix3 i r k) = ((T i r k : ℝ) : EReal))
    (t : Fin cfg1.N) (r : Fin 512) (k : Fin 768) (i : Fin 4) (q : Fin 1024)
    (hi : i.val = t.val / 2) (hq : q.val = (t.val % 2) * 512 + r.val) :
    (iblk1 (F := Ideal) V c 0 t : Vec Ideal S1x512x768 .f32) (ix3 (0 : Fin 1) r k) = ((T i q k : ℝ) : EReal) := by
  obtain ⟨e0, e1, e2, -⟩ := idx1_facts t
  refine Eq.trans ?_ (hT i q k)
  unfold iblk1
  rw [View.read_apply]
  show V c main_v15 _ = V c main_v15 _
  congr 1
  funext a; apply Fin.ext
  match a with
  | ⟨0, _⟩ => show win1_0.index t (0 : Fin 3) * 1 + 1 * (0 : Nat) = i.val; omega
  | ⟨1, _⟩ => show win1_0.index t (1 : Fin 3) * 512 + 1 * r.val = q.val; omega
  | ⟨2, _⟩ => show win1_0.index t (2 : Fin 3) * 768 + 1 * k.val = k.val; omega

theorem iblk1_1_apply (Wg : Fin 768 → Fin 768 → ℝ)
    (hW : ∀ (k d : Fin 768), (V c main_v4 : S768x768.Idx → EReal) (ix2 k d) = ((Wg k d : ℝ) : EReal))
    (t : Fin cfg1.N) (k d : Fin 768) :
    (iblk1 (F := Ideal) V c 1 t : Vec Ideal S768x768 .bf16) (ix2 k d) = ((Wg k d : ℝ) : EReal) := by
  obtain ⟨-, -, -, e0, e1, -⟩ := idx1_facts t
  refine Eq.trans ?_ (hW k d)
  unfold iblk1
  rw [View.read_apply]
  show V c main_v4 _ = V c main_v4 _
  congr 1
  funext a; apply Fin.ext
  match a with
  | ⟨0, _⟩ => show win1_1.index t (0 : Fin 2) * 768 + 1 * k.val = k.val; omega
  | ⟨1, _⟩ => show win1_1.index t (1 : Fin 2) * 768 + 1 * d.val = d.val; omega

theorem iblk1_2_apply (bl : Fin 768 → ℝ)
    (hb : ∀ d : Fin 768, (V c main_v5 : S1x768.Idx → EReal) (ix2 (0 : Fin 1) d) = ((bl d : ℝ) : EReal))
    (t : Fin cfg1.N) (d : Fin 768) :
    (iblk1 (F := Ideal) V c 2 t : Vec Ideal S1x768 .f32) (ix2 (0 : Fin 1) d) = ((bl d : ℝ) : EReal) := by
  obtain ⟨-, -, -, -, -, e0, e1, -⟩ := idx1_facts t
  refine Eq.trans ?_ (hb d)
  unfold iblk1
  rw [View.read_apply]
  show V c main_v5 _ = V c main_v5 _
  congr 1
  funext a; apply Fin.ext
  match a with
  | ⟨0, _⟩ => show win1_2.index t (0 : Fin 2) * 1 + 1 * (0 : Nat) = 0; omega
  | ⟨1, _⟩ => show win1_2.index t (1 : Fin 2) * 768 + 1 * d.val = d.val; omega

theorem iblk1_3_apply (g2 : Fin 768 → ℝ)
    (hg : ∀ d : Fin 768, (V c main_v6 : S1x768.Idx → EReal) (ix2 (0 : Fin 1) d) = ((g2 d : ℝ) : EReal))
    (t : Fin cfg1.N) (d : Fin 768) :
    (iblk1 (F := Ideal) V c 3 t : Vec Ideal S1x768 .f32) (ix2 (0 : Fin 1) d) = ((g2 d : ℝ) : EReal) := by
  obtain ⟨-, -, -, -, -, -, -, e0, e1, -⟩ := idx1_facts t
  refine Eq.trans ?_ (hg d)
  unfold iblk1
  rw [View.read_apply]
  show V c main_v6 _ = V c main_v6 _
  congr 1
  funext a; apply Fin.ext
  match a with
  | ⟨0, _⟩ => show win1_3.index t (0 : Fin 2) * 1 + 1 * (0 : Nat) = 0; omega
  | ⟨1, _⟩ => show win1_3.index t (1 : Fin 2) * 768 + 1 * d.val = d.val; omega

theorem iblk1_4_apply (PH : Fin 32 → Fin 768 → ℝ)
    (hPH : ∀ (a : Fin 32) (d : Fin 768), (V c main_arg5 : S32x768.Idx → EReal) (ix2 a d) = ((PH a d : ℝ) : EReal))
    (t : Fin cfg1.N) (a : Fin 16) (d : Fin 768) (q : Fin 32) (hq : q.val = (t.val % 2) * 16 + a.val) :
    (iblk1 (F := Ideal) V c 4 t : Vec Ideal S16x768 .f32) (ix2 a d) = ((PH q d : ℝ) : EReal) := by
  obtain ⟨-, -, -, -, -, -, -, -, -, e0, e1, -⟩ := idx1_facts t
  refine Eq.trans ?_ (hPH q d)
  unfold iblk1
  rw [View.read_apply]
  show V c main_arg5 _ = V c main_arg5 _
  congr 1
  funext x; apply Fin.ext
  match x with
  | ⟨0, _⟩ => show win1_4.index t (0 : Fin 2) * 16 + 1 * a.val = q.val; omega
  | ⟨1, _⟩ => show win1_4.index t (1 : Fin 2) * 768 + 1 * d.val = d.val; omega

theorem iblk1_5_apply (PW : Fin 32 → Fin 768 → ℝ)
    (hPW : ∀ (a : Fin 32) (d : Fin 768), (V c main_arg6 : S32x768.Idx → EReal) (ix2 a d) = ((PW a d : ℝ) : EReal))
    (t : Fin cfg1.N) (a : Fin 32) (d : Fin 768) :
    (iblk1 (F := Ideal) V c 5 t : Vec Ideal S32x768 .f32) (ix2 a d) = ((PW a d : ℝ) : EReal) := by
  obtain ⟨-, -, -, -, -, -, -, -, -, -, -, e0, e1, -⟩ := idx1_facts t
  refine Eq.trans ?_ (hPW a d)
  unfold iblk1
  rw [View.read_apply]
  show V c main_arg6 _ = V c main_arg6 _
  congr 1
  funext x; apply Fin.ext
  match x with
  | ⟨0, _⟩ => show win1_5.index t (0 : Fin 2) * 32 + 1 * a.val = a.val; omega
  | ⟨1, _⟩ => show win1_5.index t (1 : Fin 2) * 768 + 1 * d.val = d.val; omega

end

def G1 (T : Fin 4 → Fin 1024 → Fin 768 → ℝ) (Wg : Fin 768 → Fin 768 → ℝ) (bl g2 : Fin 768 → ℝ) (PH PW : Fin 32 → Fin 768 → ℝ) :
    S4x1024x768.Idx → EReal := fun j =>
  ((Cert.Spec.rowK (T (j 0) (j 1)) Wg bl g2
    (fun d => PH (⟨(j 1).val / 32, by have h : (j 1).val < 1024 := (j 1).isLt; omega⟩ : Fin 32) d
      + PW (⟨(j 1).val % 32, by omega⟩ : Fin 32) d) (j 2) : ℝ) : EReal)

theorem flushed1_eq (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v15 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (t : Fin cfg1.N) :
    (dat1 (F := Ideal) V c).flushed 6 t = ((cfg1.win 6).blk t).view.read (Elt Ideal) (G1 T Wg bl g2 PH PW) := by
  have hN : cfg1.N = 8 := by decide
  have htlt : t.val < 8 := hN ▸ t.isLt
  show (cfg1.win 6).cut (grid1.coords t) ((dat1 V c).after 6 t) = _
  rw [after1_6]
  unfold out1_6
  rw [View.canon_unit_zero hz1_3]
  simp only [View.ld_unit_zero (S := S1x512x768) hz1_3, View.ld_unit_zero (S := S768x768) hz1_2,
    View.ld_unit_zero (S := S1x768) hz1_2, View.ld_unit_zero (S := S16x768) hz1_2, View.ld_unit_zero (S := S32x768) hz1_2]
  funext y
  obtain ⟨r, d, rfl⟩ : ∃ (r : Fin 512) (d : Fin 768), y = (ix3 (0 : Fin 1) r d : S1x512x768.Idx) :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  obtain ⟨i, hi⟩ : ∃ i : Fin 4, i.val = t.val / 2 := ⟨⟨t.val / 2, by omega⟩, rfl⟩
  have hrlt := r.isLt
  have hqlt : (t.val % 2) * 512 + r.val < 1024 := by omega
  have hpay := pay0_apply (iblk1 V c 0 t) (iblk1 V c 1 t) (iblk1 V c 2 t) (iblk1 V c 3 t) (iblk1 V c 4 t) (iblk1 V c 5 t)
    (fun r k => T i (⟨(t.val % 2) * 512 + r.val, by have := r.isLt; omega⟩ : Fin 1024) k) Wg bl g2
    (fun a d => PH (⟨(t.val % 2) * 16 + a.val, by have := a.isLt; omega⟩ : Fin 32) d) PW
    (fun r k => iblk1_0_apply V c T hT t r k i _ hi rfl)
    (fun k d => iblk1_1_apply V c Wg hW t k d)
    (fun d => iblk1_2_apply V c bl hb t d)
    (fun d => iblk1_3_apply V c g2 hg t d)
    (fun a d => iblk1_4_apply V c PH hPH t a d _ rfl)
    (fun a d => iblk1_5_apply V c PW hPW t a d)
    r d
  refine hpay.trans ?_
  rw [View.read_apply]
  have hemb : ((cfg1.win 6).blk t).view.emb (ix3 (0 : Fin 1) r d : S1x512x768.Idx)
      = (ix3 i (⟨(t.val % 2) * 512 + r.val, hqlt⟩ : Fin 1024) d : S4x1024x768.Idx) := by
    obtain ⟨-, -, -, -, -, -, -, -, -, -, -, -, -, e0, e1, e2⟩ := idx1_facts t
    funext a; apply Fin.ext
    match a with
    | ⟨0, _⟩ => show win1_6.index t (0 : Fin 3) * 1 + 1 * (0 : Nat) = i.val; omega
    | ⟨1, _⟩ => show win1_6.index t (1 : Fin 3) * 512 + 1 * r.val = (t.val % 2) * 512 + r.val; omega
    | ⟨2, _⟩ => show win1_6.index t (2 : Fin 3) * 768 + 1 * d.val = d.val; omega
  show _ = G1 T Wg bl g2 PH PW (((cfg1.win 6).blk t).view.emb (ix3 (0 : Fin 1) r d : S1x512x768.Idx))
  rw [hemb]
  have h1 : (⟨(t.val % 2) * 16 + r.val / 32, by omega⟩ : Fin 32) = ⟨((t.val % 2) * 512 + r.val) / 32, by omega⟩ :=
    Fin.ext (by show (t.val % 2) * 16 + r.val / 32 = ((t.val % 2) * 512 + r.val) / 32; omega)
  have h2 : (⟨r.val % 32, by omega⟩ : Fin 32) = ⟨((t.val % 2) * 512 + r.val) % 32, by omega⟩ :=
    Fin.ext (by show r.val % 32 = ((t.val % 2) * 512 + r.val) % 32; omega)
  refine congrArg (fun P : Fin 768 → ℝ =>
    ((Cert.Spec.rowK (T i (⟨(t.val % 2) * 512 + r.val, hqlt⟩ : Fin 1024)) Wg bl g2 P d : ℝ) : EReal)) (funext fun d' => ?_)
  exact congrArg₂ (· + ·) (congrArg (fun a => PH a d') h1) (congrArg (fun a => PW a d') h2)

theorem region1_value (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v15 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (i : Fin 4) (r : Fin 1024) (d : Fin 768) :
    ((dat1 (F := Ideal) V c).arrAt 6 cfg1.N : S4x1024x768.Idx → EReal) (ix3 i r d)
      = ((Cert.Spec.rowK (T i r) Wg bl g2
          (fun d => PH (⟨r.val / 32, by have := r.isLt; omega⟩ : Fin 32) d + PW (⟨r.val % 32, by omega⟩ : Fin 32) d) d : ℝ) : EReal) := by
  have hN : cfg1.N = 8 := by decide
  have hr := r.isLt
  have hi := i.isLt
  obtain ⟨t, ht⟩ : ∃ t : Fin cfg1.N, t.val = 2 * i.val + r.val / 512 := ⟨⟨2 * i.val + r.val / 512, by omega⟩, rfl⟩
  refine (dat1 (F := Ideal) V c).arrAt_apply_of_mem 6 (G1 T Wg bl g2 PH PW)
    (fun t _ => flushed1_eq V c T Wg bl g2 PH PW hT hW hb hg hPH hPW t) cfg1.N t (ix3 i r d) t.isLt (flush1_6 t) ?_
  show (ix3 i r d : S4x1024x768.Idx) ∈ ((View.whole main_v16).slice (win1_6.rect t)).set
  rw [View.set_slice_whole, Rect.mem_set_unit]
  obtain ⟨-, -, -, -, -, -, -, -, -, -, -, -, -, e0, e1, e2⟩ := idx1_facts t
  intro a
  match a with
  | ⟨0, _⟩ => show win1_6.index t (0 : Fin 3) * 1 ≤ i.val ∧ i.val < win1_6.index t (0 : Fin 3) * 1 + 1; omega
  | ⟨1, _⟩ => show win1_6.index t (1 : Fin 3) * 512 ≤ r.val ∧ r.val < win1_6.index t (1 : Fin 3) * 512 + 512; omega
  | ⟨2, _⟩ => show win1_6.index t (2 : Fin 3) * 768 ≤ d.val ∧ d.val < win1_6.index t (2 : Fin 3) * 768 + 768; have := d.isLt; omega

end Cert.KernelIdeal.Hand

end
-- ==== Proof.KI.Blocks2.lean ====
import proofs.«111676_g55894704390624_cont_9to1_m_944_13_alg».proof.Proof.KI.Region2
import proofs.«111676_g55894704390624_cont_9to1_m_944_13_alg».proof.Proof.KI.Payload
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz2_3 : (![0, 0, 0] : Fin 3 → Nat) = fun _ => 0 := funext fun a => by fin_cases a <;> rfl
theorem hz2_2 : (![0, 0] : Fin 2 → Nat) = fun _ => 0 := funext fun a => by fin_cases a <;> rfl

theorem idx2_facts : ∀ t : Fin cfg2.N,
    win2_0.index t (0 : Fin 3) = t.val / 2 ∧ win2_0.index t (1 : Fin 3) = t.val % 2 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val % 2 ∧ win2_4.index t (1 : Fin 2) = 0
    ∧ win2_5.index t (0 : Fin 2) = 0 ∧ win2_5.index t (1 : Fin 2) = 0
    ∧ win2_6.index t (0 : Fin 3) = t.val / 2 ∧ win2_6.index t (1 : Fin 3) = t.val % 2 ∧ win2_6.index t (2 : Fin 3) = 0 :=
  (by decide +kernel : ∀ t : Fin grid2.N, _)

section
variable (V : (c : Dev nD) → (b : Ref sig .tc) → Buf (Elt Ideal) ((c : Thread nD τ).loc b)) (c : Dev nD)

theorem iblk2_0_apply (T : Fin 4 → Fin 1024 → Fin 768 → ℝ)
    (hT : ∀ (i : Fin 4) (r : Fin 1024) (k : Fin 768), (V c main_v20 : S4x1024x768.Idx → EReal) (ix3 i r k) = ((T i r k : ℝ) : EReal))
    (t : Fin cfg2.N) (r : Fin 512) (k : Fin 768) (i : Fin 4) (q : Fin 1024)
    (hi : i.val = t.val / 2) (hq : q.val = (t.val % 2) * 512 + r.val) :
    (iblk2 (F := Ideal) V c 0 t : Vec Ideal S1x512x768 .f32) (ix3 (0 : Fin 1) r k) = ((T i q k : ℝ) : EReal) := by
  obtain ⟨e0, e1, e2, -⟩ := idx2_facts t
  refine Eq.trans ?_ (hT i q k)
  unfold iblk2
  rw [View.read_apply]
  show V c main_v20 _ = V c main_v20 _
  congr 1
  funext a; apply Fin.ext
  match a with
  | ⟨0, _⟩ => show win2_0.index t (0 : Fin 3) * 1 + 1 * (0 : Nat) = i.val; omega
  | ⟨1, _⟩ => show win2_0.index t (1 : Fin 3) * 512 + 1 * r.val = q.val; omega
  | ⟨2, _⟩ => show win2_0.index t (2 : Fin 3) * 768 + 1 * k.val = k.val; omega

theorem iblk2_1_apply (Wg : Fin 768 → Fin 768 → ℝ)
    (hW : ∀ (k d : Fin 768), (V c main_v4 : S768x768.Idx → EReal) (ix2 k d) = ((Wg k d : ℝ) : EReal))
    (t : Fin cfg2.N) (k d : Fin 768) :
    (iblk2 (F := Ideal) V c 1 t : Vec Ideal S768x768 .bf16) (ix2 k d) = ((Wg k d : ℝ) : EReal) := by
  obtain ⟨-, -, -, e0, e1, -⟩ := idx2_facts t
  refine Eq.trans ?_ (hW k d)
  unfold iblk2
  rw [View.read_apply]
  show V c main_v4 _ = V c main_v4 _
  congr 1
  funext a; apply Fin.ext
  match a with
  | ⟨0, _⟩ => show win2_1.index t (0 : Fin 2) * 768 + 1 * k.val = k.val; omega
  | ⟨1, _⟩ => show win2_1.index t (1 : Fin 2) * 768 + 1 * d.val = d.val; omega

theorem iblk2_2_apply (bl : Fin 768 → ℝ)
    (hb : ∀ d : Fin 768, (V c main_v5 : S1x768.Idx → EReal) (ix2 (0 : Fin 1) d) = ((bl d : ℝ) : EReal))
    (t : Fin cfg2.N) (d : Fin 768) :
    (iblk2 (F := Ideal) V c 2 t : Vec Ideal S1x768 .f32) (ix2 (0 : Fin 1) d) = ((bl d : ℝ) : EReal) := by
  obtain ⟨-, -, -, -, -, e0, e1, -⟩ := idx2_facts t
  refine Eq.trans ?_ (hb d)
  unfold iblk2
  rw [View.read_apply]
  show V c main_v5 _ = V c main_v5 _
  congr 1
  funext a; apply Fin.ext
  match a with
  | ⟨0, _⟩ => show win2_2.index t (0 : Fin 2) * 1 + 1 * (0 : Nat) = 0; omega
  | ⟨1, _⟩ => show win2_2.index t (1 : Fin 2) * 768 + 1 * d.val = d.val; omega

theorem iblk2_3_apply (g2 : Fin 768 → ℝ)
    (hg : ∀ d : Fin 768, (V c main_v6 : S1x768.Idx → EReal) (ix2 (0 : Fin 1) d) = ((g2 d : ℝ) : EReal))
    (t : Fin cfg2.N) (d : Fin 768) :
    (iblk2 (F := Ideal) V c 3 t : Vec Ideal S1x768 .f32) (ix2 (0 : Fin 1) d) = ((g2 d : ℝ) : EReal) := by
  obtain ⟨-, -, -, -, -, -, -, e0, e1, -⟩ := idx2_facts t
  refine Eq.trans ?_ (hg d)
  unfold iblk2
  rw [View.read_apply]
  show V c main_v6 _ = V c main_v6 _
  congr 1
  funext a; apply Fin.ext
  match a with
  | ⟨0, _⟩ => show win2_3.index t (0 : Fin 2) * 1 + 1 * (0 : Nat) = 0; omega
  | ⟨1, _⟩ => show win2_3.index t (1 : Fin 2) * 768 + 1 * d.val = d.val; omega

theorem iblk2_4_apply (PH : Fin 32 → Fin 768 → ℝ)
    (hPH : ∀ (a : Fin 32) (d : Fin 768), (V c main_arg5 : S32x768.Idx → EReal) (ix2 a d) = ((PH a d : ℝ) : EReal))
    (t : Fin cfg2.N) (a : Fin 16) (d : Fin 768) (q : Fin 32) (hq : q.val = (t.val % 2) * 16 + a.val) :
    (iblk2 (F := Ideal) V c 4 t : Vec Ideal S16x768 .f32) (ix2 a d) = ((PH q d : ℝ) : EReal) := by
  obtain ⟨-, -, -, -, -, -, -, -, -, e0, e1, -⟩ := idx2_facts t
  refine Eq.trans ?_ (hPH q d)
  unfold iblk2
  rw [View.read_apply]
  show V c main_arg5 _ = V c main_arg5 _
  congr 1
  funext x; apply Fin.ext
  match x with
  | ⟨0, _⟩ => show win2_4.index t (0 : Fin 2) * 16 + 1 * a.val = q.val; omega
  | ⟨1, _⟩ => show win2_4.index t (1 : Fin 2) * 768 + 1 * d.val = d.val; omega

theorem iblk2_5_apply (PW : Fin 32 → Fin 768 → ℝ)
    (hPW : ∀ (a : Fin 32) (d : Fin 768), (V c main_arg6 : S32x768.Idx → EReal) (ix2 a d) = ((PW a d : ℝ) : EReal))
    (t : Fin cfg2.N) (a : Fin 32) (d : Fin 768) :
    (iblk2 (F := Ideal) V c 5 t : Vec Ideal S32x768 .f32) (ix2 a d) = ((PW a d : ℝ) : EReal) := by
  obtain ⟨-, -, -, -, -, -, -, -, -, -, -, e0, e1, -⟩ := idx2_facts t
  refine Eq.trans ?_ (hPW a d)
  unfold iblk2
  rw [View.read_apply]
  show V c main_arg6 _ = V c main_arg6 _
  congr 1
  funext x; apply Fin.ext
  match x with
  | ⟨0, _⟩ => show win2_5.index t (0 : Fin 2) * 32 + 1 * a.val = a.val; omega
  | ⟨1, _⟩ => show win2_5.index t (1 : Fin 2) * 768 + 1 * d.val = d.val; omega

end

def G2 (T : Fin 4 → Fin 1024 → Fin 768 → ℝ) (Wg : Fin 768 → Fin 768 → ℝ) (bl g2 : Fin 768 → ℝ) (PH PW : Fin 32 → Fin 768 → ℝ) :
    S4x1024x768.Idx → EReal := fun j =>
  ((Cert.Spec.rowK (T (j 0) (j 1)) Wg bl g2
    (fun d => PH (⟨(j 1).val / 32, by have h : (j 1).val < 1024 := (j 1).isLt; omega⟩ : Fin 32) d
      + PW (⟨(j 1).val % 32, by omega⟩ : Fin 32) d) (j 2) : ℝ) : EReal)

theorem flushed2_eq (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v20 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (t : Fin cfg2.N) :
    (dat2 (F := Ideal) V c).flushed 6 t = ((cfg2.win 6).blk t).view.read (Elt Ideal) (G2 T Wg bl g2 PH PW) := by
  have hN : cfg2.N = 8 := by decide
  have htlt : t.val < 8 := hN ▸ t.isLt
  show (cfg2.win 6).cut (grid2.coords t) ((dat2 V c).after 6 t) = _
  rw [after2_6]
  unfold out2_6
  rw [View.canon_unit_zero hz2_3]
  simp only [View.ld_unit_zero (S := S1x512x768) hz2_3, View.ld_unit_zero (S := S768x768) hz2_2,
    View.ld_unit_zero (S := S1x768) hz2_2, View.ld_unit_zero (S := S16x768) hz2_2, View.ld_unit_zero (S := S32x768) hz2_2]
  funext y
  obtain ⟨r, d, rfl⟩ : ∃ (r : Fin 512) (d : Fin 768), y = (ix3 (0 : Fin 1) r d : S1x512x768.Idx) :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  obtain ⟨i, hi⟩ : ∃ i : Fin 4, i.val = t.val / 2 := ⟨⟨t.val / 2, by omega⟩, rfl⟩
  have hrlt := r.isLt
  have hqlt : (t.val % 2) * 512 + r.val < 1024 := by omega
  have hpay := pay0_apply (iblk2 V c 0 t) (iblk2 V c 1 t) (iblk2 V c 2 t) (iblk2 V c 3 t) (iblk2 V c 4 t) (iblk2 V c 5 t)
    (fun r k => T i (⟨(t.val % 2) * 512 + r.val, by have := r.isLt; omega⟩ : Fin 1024) k) Wg bl g2
    (fun a d => PH (⟨(t.val % 2) * 16 + a.val, by have := a.isLt; omega⟩ : Fin 32) d) PW
    (fun r k => iblk2_0_apply V c T hT t r k i _ hi rfl)
    (fun k d => iblk2_1_apply V c Wg hW t k d)
    (fun d => iblk2_2_apply V c bl hb t d)
    (fun d => iblk2_3_apply V c g2 hg t d)
    (fun a d => iblk2_4_apply V c PH hPH t a d _ rfl)
    (fun a d => iblk2_5_apply V c PW hPW t a d)
    r d
  refine hpay.trans ?_
  rw [View.read_apply]
  have hemb : ((cfg2.win 6).blk t).view.emb (ix3 (0 : Fin 1) r d : S1x512x768.Idx)
      = (ix3 i (⟨(t.val % 2) * 512 + r.val, hqlt⟩ : Fin 1024) d : S4x1024x768.Idx) := by
    obtain ⟨-, -, -, -, -, -, -, -, -, -, -, -, -, e0, e1, e2⟩ := idx2_facts t
    funext a; apply Fin.ext
    match a with
    | ⟨0, _⟩ => show win2_6.index t (0 : Fin 3) * 1 + 1 * (0 : Nat) = i.val; omega
    | ⟨1, _⟩ => show win2_6.index t (1 : Fin 3) * 512 + 1 * r.val = (t.val % 2) * 512 + r.val; omega
    | ⟨2, _⟩ => show win2_6.index t (2 : Fin 3) * 768 + 1 * d.val = d.val; omega
  show _ = G2 T Wg bl g2 PH PW (((cfg2.win 6).blk t).view.emb (ix3 (0 : Fin 1) r d : S1x512x768.Idx))
  rw [hemb]
  have h1 : (⟨(t.val % 2) * 16 + r.val / 32, by omega⟩ : Fin 32) = ⟨((t.val % 2) * 512 + r.val) / 32, by omega⟩ :=
    Fin.ext (by show (t.val % 2) * 16 + r.val / 32 = ((t.val % 2) * 512 + r.val) / 32; omega)
  have h2 : (⟨r.val % 32, by omega⟩ : Fin 32) = ⟨((t.val % 2) * 512 + r.val) % 32, by omega⟩ :=
    Fin.ext (by show r.val % 32 = ((t.val % 2) * 512 + r.val) % 32; omega)
  refine congrArg (fun P : Fin 768 → ℝ =>
    ((Cert.Spec.rowK (T i (⟨(t.val % 2) * 512 + r.val, hqlt⟩ : Fin 1024)) Wg bl g2 P d : ℝ) : EReal)) (funext fun d' => ?_)
  exact congrArg₂ (· + ·) (congrArg (fun a => PH a d') h1) (congrArg (fun a => PW a d') h2)

theorem region2_value (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v20 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (i : Fin 4) (r : Fin 1024) (d : Fin 768) :
    ((dat2 (F := Ideal) V c).arrAt 6 cfg2.N : S4x1024x768.Idx → EReal) (ix3 i r d)
      = ((Cert.Spec.rowK (T i r) Wg bl g2
          (fun d => PH (⟨r.val / 32, by have := r.isLt; omega⟩ : Fin 32) d + PW (⟨r.val % 32, by omega⟩ : Fin 32) d) d : ℝ) : EReal) := by
  have hN : cfg2.N = 8 := by decide
  have hr := r.isLt
  have hi := i.isLt
  obtain ⟨t, ht⟩ : ∃ t : Fin cfg2.N, t.val = 2 * i.val + r.val / 512 := ⟨⟨2 * i.val + r.val / 512, by omega⟩, rfl⟩
  refine (dat2 (F := Ideal) V c).arrAt_apply_of_mem 6 (G2 T Wg bl g2 PH PW)
    (fun t _ => flushed2_eq V c T Wg bl g2 PH PW hT hW hb hg hPH hPW t) cfg2.N t (ix3 i r d) t.isLt (flush2_6 t) ?_
  show (ix3 i r d : S4x1024x768.Idx) ∈ ((View.whole main_v21).slice (win2_6.rect t)).set
  rw [View.set_slice_whole, Rect.mem_set_unit]
  obtain ⟨-, -, -, -, -, -, -, -, -, -, -, -, -, e0, e1, e2⟩ := idx2_facts t
  intro a
  match a with
  | ⟨0, _⟩ => show win2_6.index t (0 : Fin 3) * 1 ≤ i.val ∧ i.val < win2_6.index t (0 : Fin 3) * 1 + 1; omega
  | ⟨1, _⟩ => show win2_6.index t (1 : Fin 3) * 512 ≤ r.val ∧ r.val < win2_6.index t (1 : Fin 3) * 512 + 512; omega
  | ⟨2, _⟩ => show win2_6.index t (2 : Fin 3) * 768 ≤ d.val ∧ d.val < win2_6.index t (2 : Fin 3) * 768 + 768; have := d.isLt; omega

end Cert.KernelIdeal.Hand

end
-- ==== Proof.KI.Blocks3.lean ====
import proofs.«111676_g55894704390624_cont_9to1_m_944_13_alg».proof.Proof.KI.Region3
import proofs.«111676_g55894704390624_cont_9to1_m_944_13_alg».proof.Proof.KI.Payload
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem hz3_3 : (![0, 0, 0] : Fin 3 → Nat) = fun _ => 0 := funext fun a => by fin_cases a <;> rfl
theorem hz3_2 : (![0, 0] : Fin 2 → Nat) = fun _ => 0 := funext fun a => by fin_cases a <;> rfl

theorem idx3_facts : ∀ t : Fin cfg3.N,
    win3_0.index t (0 : Fin 3) = t.val / 2 ∧ win3_0.index t (1 : Fin 3) = t.val % 2 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val % 2 ∧ win3_4.index t (1 : Fin 2) = 0
    ∧ win3_5.index t (0 : Fin 2) = 0 ∧ win3_5.index t (1 : Fin 2) = 0
    ∧ win3_6.index t (0 : Fin 3) = t.val / 2 ∧ win3_6.index t (1 : Fin 3) = t.val % 2 ∧ win3_6.index t (2 : Fin 3) = 0 :=
  (by decide +kernel : ∀ t : Fin grid3.N, _)

section
variable (V : (c : Dev nD) → (b : Ref sig .tc) → Buf (Elt Ideal) ((c : Thread nD τ).loc b)) (c : Dev nD)

theorem iblk3_0_apply (T : Fin 4 → Fin 1024 → Fin 768 → ℝ)
    (hT : ∀ (i : Fin 4) (r : Fin 1024) (k : Fin 768), (V c main_v25 : S4x1024x768.Idx → EReal) (ix3 i r k) = ((T i r k : ℝ) : EReal))
    (t : Fin cfg3.N) (r : Fin 512) (k : Fin 768) (i : Fin 4) (q : Fin 1024)
    (hi : i.val = t.val / 2) (hq : q.val = (t.val % 2) * 512 + r.val) :
    (iblk3 (F := Ideal) V c 0 t : Vec Ideal S1x512x768 .f32) (ix3 (0 : Fin 1) r k) = ((T i q k : ℝ) : EReal) := by
  obtain ⟨e0, e1, e2, -⟩ := idx3_facts t
  refine Eq.trans ?_ (hT i q k)
  unfold iblk3
  rw [View.read_apply]
  show V c main_v25 _ = V c main_v25 _
  congr 1
  funext a; apply Fin.ext
  match a with
  | ⟨0, _⟩ => show win3_0.index t (0 : Fin 3) * 1 + 1 * (0 : Nat) = i.val; omega
  | ⟨1, _⟩ => show win3_0.index t (1 : Fin 3) * 512 + 1 * r.val = q.val; omega
  | ⟨2, _⟩ => show win3_0.index t (2 : Fin 3) * 768 + 1 * k.val = k.val; omega

theorem iblk3_1_apply (Wg : Fin 768 → Fin 768 → ℝ)
    (hW : ∀ (k d : Fin 768), (V c main_v4 : S768x768.Idx → EReal) (ix2 k d) = ((Wg k d : ℝ) : EReal))
    (t : Fin cfg3.N) (k d : Fin 768) :
    (iblk3 (F := Ideal) V c 1 t : Vec Ideal S768x768 .bf16) (ix2 k d) = ((Wg k d : ℝ) : EReal) := by
  obtain ⟨-, -, -, e0, e1, -⟩ := idx3_facts t
  refine Eq.trans ?_ (hW k d)
  unfold iblk3
  rw [View.read_apply]
  show V c main_v4 _ = V c main_v4 _
  congr 1
  funext a; apply Fin.ext
  match a with
  | ⟨0, _⟩ => show win3_1.index t (0 : Fin 2) * 768 + 1 * k.val = k.val; omega
  | ⟨1, _⟩ => show win3_1.index t (1 : Fin 2) * 768 + 1 * d.val = d.val; omega

theorem iblk3_2_apply (bl : Fin 768 → ℝ)
    (hb : ∀ d : Fin 768, (V c main_v5 : S1x768.Idx → EReal) (ix2 (0 : Fin 1) d) = ((bl d : ℝ) : EReal))
    (t : Fin cfg3.N) (d : Fin 768) :
    (iblk3 (F := Ideal) V c 2 t : Vec Ideal S1x768 .f32) (ix2 (0 : Fin 1) d) = ((bl d : ℝ) : EReal) := by
  obtain ⟨-, -, -, -, -, e0, e1, -⟩ := idx3_facts t
  refine Eq.trans ?_ (hb d)
  unfold iblk3
  rw [View.read_apply]
  show V c main_v5 _ = V c main_v5 _
  congr 1
  funext a; apply Fin.ext
  match a with
  | ⟨0, _⟩ => show win3_2.index t (0 : Fin 2) * 1 + 1 * (0 : Nat) = 0; omega
  | ⟨1, _⟩ => show win3_2.index t (1 : Fin 2) * 768 + 1 * d.val = d.val; omega

theorem iblk3_3_apply (g2 : Fin 768 → ℝ)
    (hg : ∀ d : Fin 768, (V c main_v6 : S1x768.Idx → EReal) (ix2 (0 : Fin 1) d) = ((g2 d : ℝ) : EReal))
    (t : Fin cfg3.N) (d : Fin 768) :
    (iblk3 (F := Ideal) V c 3 t : Vec Ideal S1x768 .f32) (ix2 (0 : Fin 1) d) = ((g2 d : ℝ) : EReal) := by
  obtain ⟨-, -, -, -, -, -, -, e0, e1, -⟩ := idx3_facts t
  refine Eq.trans ?_ (hg d)
  unfold iblk3
  rw [View.read_apply]
  show V c main_v6 _ = V c main_v6 _
  congr 1
  funext a; apply Fin.ext
  match a with
  | ⟨0, _⟩ => show win3_3.index t (0 : Fin 2) * 1 + 1 * (0 : Nat) = 0; omega
  | ⟨1, _⟩ => show win3_3.index t (1 : Fin 2) * 768 + 1 * d.val = d.val; omega

theorem iblk3_4_apply (PH : Fin 32 → Fin 768 → ℝ)
    (hPH : ∀ (a : Fin 32) (d : Fin 768), (V c main_arg5 : S32x768.Idx → EReal) (ix2 a d) = ((PH a d : ℝ) : EReal))
    (t : Fin cfg3.N) (a : Fin 16) (d : Fin 768) (q : Fin 32) (hq : q.val = (t.val % 2) * 16 + a.val) :
    (iblk3 (F := Ideal) V c 4 t : Vec Ideal S16x768 .f32) (ix2 a d) = ((PH q d : ℝ) : EReal) := by
  obtain ⟨-, -, -, -, -, -, -, -, -, e0, e1, -⟩ := idx3_facts t
  refine Eq.trans ?_ (hPH q d)
  unfold iblk3
  rw [View.read_apply]
  show V c main_arg5 _ = V c main_arg5 _
  congr 1
  funext x; apply Fin.ext
  match x with
  | ⟨0, _⟩ => show win3_4.index t (0 : Fin 2) * 16 + 1 * a.val = q.val; omega
  | ⟨1, _⟩ => show win3_4.index t (1 : Fin 2) * 768 + 1 * d.val = d.val; omega

theorem iblk3_5_apply (PW : Fin 32 → Fin 768 → ℝ)
    (hPW : ∀ (a : Fin 32) (d : Fin 768), (V c main_arg6 : S32x768.Idx → EReal) (ix2 a d) = ((PW a d : ℝ) : EReal))
    (t : Fin cfg3.N) (a : Fin 32) (d : Fin 768) :
    (iblk3 (F := Ideal) V c 5 t : Vec Ideal S32x768 .f32) (ix2 a d) = ((PW a d : ℝ) : EReal) := by
  obtain ⟨-, -, -, -, -, -, -, -, -, -, -, e0, e1, -⟩ := idx3_facts t
  refine Eq.trans ?_ (hPW a d)
  unfold iblk3
  rw [View.read_apply]
  show V c main_arg6 _ = V c main_arg6 _
  congr 1
  funext x; apply Fin.ext
  match x with
  | ⟨0, _⟩ => show win3_5.index t (0 : Fin 2) * 32 + 1 * a.val = a.val; omega
  | ⟨1, _⟩ => show win3_5.index t (1 : Fin 2) * 768 + 1 * d.val = d.val; omega

end

def G3 (T : Fin 4 → Fin 1024 → Fin 768 → ℝ) (Wg : Fin 768 → Fin 768 → ℝ) (bl g2 : Fin 768 → ℝ) (PH PW : Fin 32 → Fin 768 → ℝ) :
    S4x1024x768.Idx → EReal := fun j =>
  ((Cert.Spec.rowK (T (j 0) (j 1)) Wg bl g2
    (fun d => PH (⟨(j 1).val / 32, by have h : (j 1).val < 1024 := (j 1).isLt; omega⟩ : Fin 32) d
      + PW (⟨(j 1).val % 32, by omega⟩ : Fin 32) d) (j 2) : ℝ) : EReal)

theorem flushed3_eq (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v25 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (t : Fin cfg3.N) :
    (dat3 (F := Ideal) V c).flushed 6 t = ((cfg3.win 6).blk t).view.read (Elt Ideal) (G3 T Wg bl g2 PH PW) := by
  have hN : cfg3.N = 8 := by decide
  have htlt : t.val < 8 := hN ▸ t.isLt
  show (cfg3.win 6).cut (grid3.coords t) ((dat3 V c).after 6 t) = _
  rw [after3_6]
  unfold out3_6
  rw [View.canon_unit_zero hz3_3]
  simp only [View.ld_unit_zero (S := S1x512x768) hz3_3, View.ld_unit_zero (S := S768x768) hz3_2,
    View.ld_unit_zero (S := S1x768) hz3_2, View.ld_unit_zero (S := S16x768) hz3_2, View.ld_unit_zero (S := S32x768) hz3_2]
  funext y
  obtain ⟨r, d, rfl⟩ : ∃ (r : Fin 512) (d : Fin 768), y = (ix3 (0 : Fin 1) r d : S1x512x768.Idx) :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  obtain ⟨i, hi⟩ : ∃ i : Fin 4, i.val = t.val / 2 := ⟨⟨t.val / 2, by omega⟩, rfl⟩
  have hrlt := r.isLt
  have hqlt : (t.val % 2) * 512 + r.val < 1024 := by omega
  have hpay := pay0_apply (iblk3 V c 0 t) (iblk3 V c 1 t) (iblk3 V c 2 t) (iblk3 V c 3 t) (iblk3 V c 4 t) (iblk3 V c 5 t)
    (fun r k => T i (⟨(t.val % 2) * 512 + r.val, by have := r.isLt; omega⟩ : Fin 1024) k) Wg bl g2
    (fun a d => PH (⟨(t.val % 2) * 16 + a.val, by have := a.isLt; omega⟩ : Fin 32) d) PW
    (fun r k => iblk3_0_apply V c T hT t r k i _ hi rfl)
    (fun k d => iblk3_1_apply V c Wg hW t k d)
    (fun d => iblk3_2_apply V c bl hb t d)
    (fun d => iblk3_3_apply V c g2 hg t d)
    (fun a d => iblk3_4_apply V c PH hPH t a d _ rfl)
    (fun a d => iblk3_5_apply V c PW hPW t a d)
    r d
  refine hpay.trans ?_
  rw [View.read_apply]
  have hemb : ((cfg3.win 6).blk t).view.emb (ix3 (0 : Fin 1) r d : S1x512x768.Idx)
      = (ix3 i (⟨(t.val % 2) * 512 + r.val, hqlt⟩ : Fin 1024) d : S4x1024x768.Idx) := by
    obtain ⟨-, -, -, -, -, -, -, -, -, -, -, -, -, e0, e1, e2⟩ := idx3_facts t
    funext a; apply Fin.ext
    match a with
    | ⟨0, _⟩ => show win3_6.index t (0 : Fin 3) * 1 + 1 * (0 : Nat) = i.val; omega
    | ⟨1, _⟩ => show win3_6.index t (1 : Fin 3) * 512 + 1 * r.val = (t.val % 2) * 512 + r.val; omega
    | ⟨2, _⟩ => show win3_6.index t (2 : Fin 3) * 768 + 1 * d.val = d.val; omega
  show _ = G3 T Wg bl g2 PH PW (((cfg3.win 6).blk t).view.emb (ix3 (0 : Fin 1) r d : S1x512x768.Idx))
  rw [hemb]
  have h1 : (⟨(t.val % 2) * 16 + r.val / 32, by omega⟩ : Fin 32) = ⟨((t.val % 2) * 512 + r.val) / 32, by omega⟩ :=
    Fin.ext (by show (t.val % 2) * 16 + r.val / 32 = ((t.val % 2) * 512 + r.val) / 32; omega)
  have h2 : (⟨r.val % 32, by omega⟩ : Fin 32) = ⟨((t.val % 2) * 512 + r.val) % 32, by omega⟩ :=
    Fin.ext (by show r.val % 32 = ((t.val % 2) * 512 + r.val) % 32; omega)
  refine congrArg (fun P : Fin 768 → ℝ =>
    ((Cert.Spec.rowK (T i (⟨(t.val % 2) * 512 + r.val, hqlt⟩ : Fin 1024)) Wg bl g2 P d : ℝ) : EReal)) (funext fun d' => ?_)
  exact congrArg₂ (· + ·) (congrArg (fun a => PH a d') h1) (congrArg (fun a => PW a d') h2)

theorem region3_value (V : (c : Dev nD) → (b : Ref sig .tc) → Buf (Elt Ideal) ((c : Thread nD τ).loc b)) (c : Dev nD)
    (T : Fin 4 → Fin 1024 → Fin 768 → ℝ) (Wg : Fin 768 → Fin 768 → ℝ) (bl g2 : Fin 768 → ℝ) (PH PW : Fin 32 → Fin 768 → ℝ)
    (hT : ∀ (i : Fin 4) (r : Fin 1024) (k : Fin 768), (V c main_v25 : S4x1024x768.Idx → EReal) (ix3 i r k) = ((T i r k : ℝ) : EReal))
    (hW : ∀ (k d : Fin 768), (V c main_v4 : S768x768.Idx → EReal) (ix2 k d) = ((Wg k d : ℝ) : EReal))
    (hb : ∀ d : Fin 768, (V c main_v5 : S1x768.Idx → EReal) (ix2 (0 : Fin 1) d) = ((bl d : ℝ) : EReal))
    (hg : ∀ d : Fin 768, (V c main_v6 : S1x768.Idx → EReal) (ix2 (0 : Fin 1) d) = ((g2 d : ℝ) : EReal))
    (hPH : ∀ (a : Fin 32) (d : Fin 768), (V c main_arg5 : S32x768.Idx → EReal) (ix2 a d) = ((PH a d : ℝ) : EReal))
    (hPW : ∀ (a : Fin 32) (d : Fin 768), (V c main_arg6 : S32x768.Idx → EReal) (ix2 a d) = ((PW a d : ℝ) : EReal))
    (i : Fin 4) (r : Fin 1024) (d : Fin 768) :
    ((dat3 (F := Ideal) V c).arrAt 6 cfg3.N : S4x1024x768.Idx → EReal) (ix3 i r d)
      = ((Cert.Spec.rowK (T i r) Wg bl g2
          (fun d => PH (⟨r.val / 32, by have := r.isLt; omega⟩ : Fin 32) d + PW (⟨r.val % 32, by omega⟩ : Fin 32) d) d : ℝ) : EReal) := by
  have hN : cfg3.N = 8 := by decide
  have hr := r.isLt
  have hi := i.isLt
  obtain ⟨t, ht⟩ : ∃ t : Fin cfg3.N, t.val = 2 * i.val + r.val / 512 := ⟨⟨2 * i.val + r.val / 512, by omega⟩, rfl⟩
  refine (dat3 (F := Ideal) V c).arrAt_apply_of_mem 6 (G3 T Wg bl g2 PH PW)
    (fun t _ => flushed3_eq V c T Wg bl g2 PH PW hT hW hb hg hPH hPW t) cfg3.N t (ix3 i r d) t.isLt (flush3_6 t) ?_
  show (ix3 i r d : S4x1024x768.Idx) ∈ ((View.whole main_v26).slice (win3_6.rect t)).set
  rw [View.set_slice_whole, Rect.mem_set_unit]
  obtain ⟨-, -, -, -, -, -, -, -, -, -, -, -, -, e0, e1, e2⟩ := idx3_facts t
  intro a
  match a with
  | ⟨0, _⟩ => show win3_6.index t (0 : Fin 3) * 1 ≤ i.val ∧ i.val < win3_6.index t (0 : Fin 3) * 1 + 1; omega
  | ⟨1, _⟩ => show win3_6.index t (1 : Fin 3) * 512 ≤ r.val ∧ r.val < win3_6.index t (1 : Fin 3) * 512 + 512; omega
  | ⟨2, _⟩ => show win3_6.index t (2 : Fin 3) * 768 ≤ d.val ∧ d.val < win3_6.index t (2 : Fin 3) * 768 + 768; have := d.isLt; omega

end Cert.KernelIdeal.Hand

end
-- ==== Proof.KI.Value.lean ====
import proofs.«111676_g55894704390624_cont_9to1_m_944_13_alg».proof.Proof.KI.Run
import proofs.«111676_g55894704390624_cont_9to1_m_944_13_alg».proof.Proof.KI.Glue
import proofs.«111676_g55894704390624_cont_9to1_m_944_13_alg».proof.Proof.KI.Blocks0
import proofs.«111676_g55894704390624_cont_9to1_m_944_13_alg».proof.Proof.KI.Blocks1
import proofs.«111676_g55894704390624_cont_9to1_m_944_13_alg».proof.Proof.KI.Blocks2
import proofs.«111676_g55894704390624_cont_9to1_m_944_13_alg».proof.Proof.KI.Blocks3
import proofs.«111676_g55894704390624_cont_9to1_m_944_13_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg) (c : Dev nD) (A : RealArgs m c)

theorem kernel_value_chunk0 (i : Fin 4) (t : Fin 1024) (d : Fin 768) :
    (W9 m ρ c (Proc.devRef .tc main_v27) : S16x1024x768.Idx → EReal) (ix3 (⟨0 + i.val, by have := i.isLt; omega⟩ : Fin 16) t d)
      = ((Cert.Spec.outK A.I A.g1 A.W A.b A.g2 A.PH A.PW (⟨0 + i.val, by have := i.isLt; omega⟩ : Fin 16) t d : ℝ) : EReal) := by
  refine (result_chunk0 m ρ c i t d).trans ?_
  refine (region0_value (V1 m ρ) c (fun i r k => Cert.Spec.tokOf A.I (⟨0 + i.val, by have := i.isLt; omega⟩ : Fin 16) r k)
    (fun k d => A.W (ix2 d k) * A.g1 (ix1 k)) (fun d => A.b (ix1 d)) (fun d => A.g2 (ix1 d)) (fun a d => A.PH (ix2 a d)) (fun a d => A.PW (ix2 a d))
    (entry0_tok m ρ c A) (entry0_w m ρ c A) (entry0_b m ρ c A) (entry0_g m ρ c A)
    (entry0_ph m ρ c A) (entry0_pw m ρ c A) i t d).trans ?_
  rfl

theorem kernel_value_chunk1 (i : Fin 4) (t : Fin 1024) (d : Fin 768) :
    (W9 m ρ c (Proc.devRef .tc main_v27) : S16x1024x768.Idx → EReal) (ix3 (⟨4 + i.val, by have := i.isLt; omega⟩ : Fin 16) t d)
      = ((Cert.Spec.outK A.I A.g1 A.W A.b A.g2 A.PH A.PW (⟨4 + i.val, by have := i.isLt; omega⟩ : Fin 16) t d : ℝ) : EReal) := by
  refine (result_chunk1 m ρ c i t d).trans ?_
  refine (region1_value (V3 m ρ) c (fun i r k => Cert.Spec.tokOf A.I (⟨4 + i.val, by have := i.isLt; omega⟩ : Fin 16) r k)
    (fun k d => A.W (ix2 d k) * A.g1 (ix1 k)) (fun d => A.b (ix1 d)) (fun d => A.g2 (ix1 d)) (fun a d => A.PH (ix2 a d)) (fun a d => A.PW (ix2 a d))
    (entry1_tok m ρ c A) (entry1_w m ρ c A) (entry1_b m ρ c A) (entry1_g m ρ c A)
    (entry1_ph m ρ c A) (entry1_pw m ρ c A) i t d).trans ?_
  rfl

theorem kernel_value_chunk2 (i : Fin 4) (t : Fin 1024) (d : Fin 768) :
    (W9 m ρ c (Proc.devRef .tc main_v27) : S16x1024x768.Idx → EReal) (ix3 (⟨8 + i.val, by have := i.isLt; omega⟩ : Fin 16) t d)
      = ((Cert.Spec.outK A.I A.g1 A.W A.b A.g2 A.PH A.PW (⟨8 + i.val, by have := i.isLt; omega⟩ : Fin 16) t d : ℝ) : EReal) := by
  refine (result_chunk2 m ρ c i t d).trans ?_
  refine (region2_value (V5 m ρ) c (fun i r k => Cert.Spec.tokOf A.I (⟨8 + i.val, by have := i.isLt; omega⟩ : Fin 16) r k)
    (fun k d => A.W (ix2 d k) * A.g1 (ix1 k)) (fun d => A.b (ix1 d)) (fun d => A.g2 (ix1 d)) (fun a d => A.PH (ix2 a d)) (fun a d => A.PW (ix2 a d))
    (entry2_tok m ρ c A) (entry2_w m ρ c A) (entry2_b m ρ c A) (entry2_g m ρ c A)
    (entry2_ph m ρ c A) (entry2_pw m ρ c A) i t d).trans ?_
  rfl

theorem kernel_value_chunk3 (i : Fin 4) (t : Fin 1024) (d : Fin 768) :
    (W9 m ρ c (Proc.devRef .tc main_v27) : S16x1024x768.Idx → EReal) (ix3 (⟨12 + i.val, by have := i.isLt; omega⟩ : Fin 16) t d)
      = ((Cert.Spec.outK A.I A.g1 A.W A.b A.g2 A.PH A.PW (⟨12 + i.val, by have := i.isLt; omega⟩ : Fin 16) t d : ℝ) : EReal) := by
  refine (result_chunk3 m ρ c i t d).trans ?_
  refine (region3_value (V7 m ρ) c (fun i r k => Cert.Spec.tokOf A.I (⟨12 + i.val, by have := i.isLt; omega⟩ : Fin 16) r k)
    (fun k d => A.W (ix2 d k) * A.g1 (ix1 k)) (fun d => A.b (ix1 d)) (fun d => A.g2 (ix1 d)) (fun a d => A.PH (ix2 a d)) (fun a d => A.PW (ix2 a d))
    (entry3_tok m ρ c A) (entry3_w m ρ c A) (entry3_b m ρ c A) (entry3_g m ρ c A)
    (entry3_ph m ρ c A) (entry3_pw m ρ c A) i t d).trans ?_
  rfl

theorem kernel_value (B : Fin 16) (t : Fin 1024) (d : Fin 768) :
    (W9 m ρ c (Proc.devRef .tc main_v27) : S16x1024x768.Idx → EReal) (ix3 B t d)
      = ((Cert.Spec.outK A.I A.g1 A.W A.b A.g2 A.PH A.PW B t d : ℝ) : EReal) := by
  have hlt := B.isLt
  obtain h | h | h | h : B.val / 4 = 0 ∨ B.val / 4 = 1 ∨ B.val / 4 = 2 ∨ B.val / 4 = 3 := by omega
  · have e : (⟨0 + (⟨B.val % 4, Nat.mod_lt _ (by decide)⟩ : Fin 4).val, by omega⟩ : Fin 16) = B :=
      Fin.ext (by show 0 + B.val % 4 = B.val; omega)
    have key := kernel_value_chunk0 m ρ c A (⟨B.val % 4, Nat.mod_lt _ (by decide)⟩ : Fin 4) t d
    rw [e] at key
    exact key
  · have e : (⟨4 + (⟨B.val % 4, Nat.mod_lt _ (by decide)⟩ : Fin 4).val, by omega⟩ : Fin 16) = B :=
      Fin.ext (by show 4 + B.val % 4 = B.val; omega)
    have key := kernel_value_chunk1 m ρ c A (⟨B.val % 4, Nat.mod_lt _ (by decide)⟩ : Fin 4) t d
    rw [e] at key
    exact key
  · have e : (⟨8 + (⟨B.val % 4, Nat.mod_lt _ (by decide)⟩ : Fin 4).val, by omega⟩ : Fin 16) = B :=
      Fin.ext (by show 8 + B.val % 4 = B.val; omega)
    have key := kernel_value_chunk2 m ρ c A (⟨B.val % 4, Nat.mod_lt _ (by decide)⟩ : Fin 4) t d
    rw [e] at key
    exact key
  · have e : (⟨12 + (⟨B.val % 4, Nat.mod_lt _ (by decide)⟩ : Fin 4).val, by omega⟩ : Fin 16) = B :=
      Fin.ext (by show 12 + B.val % 4 = B.val; omega)
    have key := kernel_value_chunk3 m ρ c A (⟨B.val % 4, Nat.mod_lt _ (by decide)⟩ : Fin 4) t d
    rw [e] at key
    exact key

end Cert.KernelIdeal.Hand

end
-- ==== Proof.Ref.Terms.lean ====
import proofs.«111676_g55894704390624_cont_9to1_m_944_13_alg».proof.ReferenceIdeal
import Idealize.ShloMosaic.PureOps.Ideal

noncomputable section

namespace Cert.ReferenceIdeal.Hand

open Cert.ReferenceIdeal
open Idealize.ShloMosaic

variable [Facts]
open Facts₀ Facts

def tokf (a0 : FVec Ideal S16x3x512x512 .f32) : FVec Ideal S16384x768 .f32 :=
  shapeCast S16384x768
    (shapeCast S16x32x32x768
      (transpose S16x32x32x3x16x16 [0, 2, 4, 1, 3, 5]
        (shapeCast S16x3x32x16x32x16 a0 shapeCasts_S16x3x512x512_S16x3x32x16x32x16)
        transposes_S16x3x32x16x32x16_S16x32x32x3x16x16_0_2_4_1_3_5)
      shapeCasts_S16x32x32x3x16x16_S16x32x32x768)
    shapeCasts_S16x32x32x768_S16384x768

def hidxf : IVec S16384 32 :=
  shapeCast S16384
    (broadcastInDim S16x1024 ![0, 1] bcast_S1x1024_S16x1024_0_1
      (shapeCast S1x1024
        (shapeCast S1024 (broadcastInDim S32x32 ![0] bcast_S32_S32x32_0 (iotaInDim S32 32 0)) shapeCasts_S32x32_S1024)
        shapeCasts_S1024_S1x1024))
    shapeCasts_S16x1024_S16384

def widxf : IVec S16384 32 :=
  shapeCast S16384
    (broadcastInDim S16x1024 ![0, 1] bcast_S1x1024_S16x1024_0_1
      (shapeCast S1x1024
        (shapeCast S1024 (broadcastInDim S32x32 ![1] bcast_S32_S32x32_1 (iotaInDim S32 32 0)) shapeCasts_S32x32_S1024)
        shapeCasts_S1024_S1x1024))
    shapeCasts_S16x1024_S16384

def takeIdx (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 32#32))) idx)

def takeMask (idx : IVec S16384 32) : IVec S16384 1 :=
  Host.reduce IntOp.andi
    (andi (cmpi .sge (takeIdx idx) (broadcastInDim S16384x1 ![] bcast_S_S16384x1 (constantI S_ 32 0#32)))
      (cmpi .sle (takeIdx idx)
        (broadcastInDim S16384x1 ![0, 1] bcast_S1x1_S16384x1_0_1 (broadcastInDim S1x1 ![1] bcast_S1_S1x1_1 (constantI S1 32 31#32)))))
    (constantI S_ 1 1#1) reducesTo_S16384x1_S16384_d1 h_S_

def takef (tbl : FVec Ideal S32x768 .f32) (idx : IVec S16384 32) : FVec Ideal S16384x768 .f32 :=
  select (broadcastInDim S16384x768 ![0] bcast_S16384_S16384x768_0 (takeMask idx))
    (Host.gather gather_S32x768_S16384x1_S16384x768_1_0_n_n_0_1_1768 tbl (takeIdx idx))
    (broadcastInDim S16384x768 ![] bcast_S_S16384x768 (constant S_ .f32 0x7FC00000#32))

def posf (a5 a6 : FVec Ideal S32x768 .f32) : FVec Ideal S16384x768 .f32 :=
  addf (takef a5 hidxf) (takef a6 widxf)

def meanf (x : FVec Ideal S16384x768 .f32) : FVec Ideal S16384x1 .f32 :=
  Host.divf
    (broadcastInDim S16384x1 ![0] bcast_S16384_S16384x1_0
      (Host.reduceAdd x (constant S_ .f32 0x00000000#32) reducesTo_S16384x768_S16384_d1 h_S_))
    (broadcastInDim S16384x1 ![] bcast_S_S16384x1 (constant S_ .f32 0x44400000#32))

def centerf (x : FVec Ideal S16384x768 .f32) : FVec Ideal S16384x768 .f32 :=
  subf x (broadcastInDim S16384x768 ![0, 1] bcast_S16384x1_S16384x768_0_1 (meanf x))

def ddofF : FVec Ideal S_ .f32 :=
  subf (constant S_ .f32 0x44400000#32) (sitofp .f32 (constantI S_ 32 0#32))

def varf (x : FVec Ideal S16384x768 .f32) : FVec Ideal S16384x1 .f32 :=
  select (broadcastInDim S16384x1 ![] bcast_S_S16384x1 (cmpf .ogt ddofF (constant S_ .f32 0x00000000#32)))
    (Host.divf
      (broadcastInDim S16384x1 ![0] bcast_S16384_S16384x1_0
        (Host.reduceAdd (mulf (centerf x) (centerf x)) (constant S_ .f32 0x00000000#32) reducesTo_S16384x768_S16384_d1 h_S_))
      (broadcastInDim S16384x1 ![] bcast_S_S16384x1 ddofF))
    (broadcastInDim S16384x1 ![] bcast_S_S16384x1 (id (constant S_ .f32 0x7FC00000#32)))

def rowg (g : FVec Ideal S768 .f32) : FVec Ideal S16384x768 .f32 :=
  broadcastInDim S16384x768 ![0, 1] bcast_S1x768_S16384x768_0_1 (broadcastInDim S1x768 ![1] bcast_S768_S1x768_1 g)

def lnf (x : FVec Ideal S16384x768 .f32) (g : FVec Ideal S768 .f32) : FVec Ideal S16384x768 .f32 :=
  mulf
    (Host.divf (centerf x)
      (broadcastInDim S16384x768 ![0, 1] bcast_S16384x1_S16384x768_0_1
        (Host.sqrt (addf (varf x) (broadcastInDim S16384x1 ![] bcast_S_S16384x1 (constant S_ .f32 0x3727C5AC#32))))))
    (rowg g)

def linf (z : FVec Ideal S16384x768 .f32) (a2 : FVec Ideal S768x768 .f32) (a3 : FVec Ideal S768 .f32) : FVec Ideal S16384x768 .f32 :=
  addf
    (Host.dotGeneral dot_S16384x768_S768x768_S16384x768_1_0_0_1_n_n none z (transpose S768x768 [1, 0] a2 transposes_S768x768_S768x768_1_0))
    (rowg a3)

def refOut (a0 : FVec Ideal S16x3x512x512 .f32) (a1 : FVec Ideal S768 .f32) (a2 : FVec Ideal S768x768 .f32)
    (a3 a4 : FVec Ideal S768 .f32) (a5 a6 : FVec Ideal S32x768 .f32) : FVec Ideal S16x1024x768 .f32 :=
  shapeCast S16x1024x768 (addf (lnf (linf (lnf (tokf a0) a1) a2 a3) a4) (posf a5 a6)) shapeCasts_S16384x768_S16x1024x768

end Cert.ReferenceIdeal.Hand

end
-- ==== Proof.Ref.Run.lean ====
import proofs.«111676_g55894704390624_cont_9to1_m_944_13_alg».proof.Proof.Ref.Terms
import proofs.«111676_g55894704390624_cont_9to1_m_944_13_alg».proof.Proof.Gen.ReferenceIdeal
import Idealize.ShloMosaic.Lib.StableHlo.Run

noncomputable section

namespace Cert.ReferenceIdeal.Hand

open Cert.ReferenceIdeal
open Idealize.ShloMosaic Idealize.ShloMosaic.TcCoe Idealize.SL.Sem Idealize.ShloMosaic.StableHlo

variable [Facts]
open Facts₀ Facts

section Line

variable {F : FTy → Type} [FloatOps F]

abbrev ops : List (HloOp τ sig (Elt F)) :=
  [ StableHlo.reshape main_arg0 main_v0 rfl shapeCasts_S16x3x512x512_S16x3x32x16x32x16,
    StableHlo.unary main_v0 main_v1 ((transpose S16x32x32x3x16x16 [0, 2, 4, 1, 3, 5] · transposes_S16x3x32x16x32x16_S16x32x32x3x16x16_0_2_4_1_3_5) : (⟨S16x3x32x16x32x16, .f32⟩ : BufTy).Contents (Elt F) → (⟨S16x32x32x3x16x16, .f32⟩ : BufTy).Contents (Elt F)),
    StableHlo.reshape main_v1 main_v2 rfl shapeCasts_S16x32x32x3x16x16_S16x32x32x768,
    StableHlo.reshape main_v2 main_v3 rfl shapeCasts_S16x32x32x768_S16384x768,
    StableHlo.nullary main_v4 (iotaInDim S32 32 0),
    StableHlo.nullary main_v5 (iotaInDim S32 32 0),
    StableHlo.unary main_v4 main_v6 (broadcastInDim S32x32 ![0] bcast_S32_S32x32_0 : (⟨S32, .i32⟩ : BufTy).Contents (Elt F) → (⟨S32x32, .i32⟩ : BufTy).Contents (Elt F)),
    StableHlo.unary main_v5 main_v7 (broadcastInDim S32x32 ![1] bcast_S32_S32x32_1 : (⟨S32, .i32⟩ : BufTy).Contents (Elt F) → (⟨S32x32, .i32⟩ : BufTy).Contents (Elt F)),
    StableHlo.reshape main_v6 main_v8 rfl shapeCasts_S32x32_S1024,
    StableHlo.reshape main_v8 main_v9 rfl shapeCasts_S1024_S1x1024,
    StableHlo.unary main_v9 main_v10 (broadcastInDim S16x1024 ![0, 1] bcast_S1x1024_S16x1024_0_1 : (⟨S1x1024, .i32⟩ : BufTy).Contents (Elt F) → (⟨S16x1024, .i32⟩ : BufTy).Contents (Elt F)),
    StableHlo.reshape main_v10 main_v11 rfl shapeCasts_S16x1024_S16384,
    StableHlo.reshape main_v7 main_v12 rfl shapeCasts_S32x32_S1024,
    StableHlo.reshape main_v12 main_v13 rfl shapeCasts_S1024_S1x1024,
    StableHlo.unary main_v13 main_v14 (broadcastInDim S16x1024 ![0, 1] bcast_S1x1024_S16x1024_0_1 : (⟨S1x1024, .i32⟩ : BufTy).Contents (Elt F) → (⟨S16x1024, .i32⟩ : BufTy).Contents (Elt F)),
    StableHlo.reshape main_v14 main_v15 rfl shapeCasts_S16x1024_S16384,
    StableHlo.TRef.nullary main_call0.c (constantI S_ 32 0#32),
    StableHlo.TRef.unary main_call0.c main_call0.v0 (broadcastInDim S16384 ![] bcast_S_S16384),
    StableHlo.TRef.binary (StableHlo.TRef.of main_v11 : StableHlo.TRef sig ⟨S16384, .i32⟩) main_call0.v0 main_call0.v1 (cmpi .slt),
    StableHlo.TRef.nullary main_call0.c_0 (constantI S_ 32 32#32),
    StableHlo.TRef.unary main_call0.c_0 main_call0.v2 (broadcastInDim S16384 ![] bcast_S_S16384),
    StableHlo.TRef.binary (StableHlo.TRef.of main_v11 : StableHlo.TRef sig ⟨S16384, .i32⟩) main_call0.v2 main_call0.v3 addi,
    StableHlo.TRef.ternary main_call0.v1 main_call0.v3 (StableHlo.TRef.of main_v11 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 31#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (StableHlo.TRef.of main_arg5 : StableHlo.TRef sig ⟨S32x768, .f32⟩) main_call0.v5 main_call0.v13 (fun x i => Host.gather gather_S32x768_S16384x1_S16384x768_1_0_n_n_0_1_1768 x i),
    StableHlo.TRef.unary main_call0.v12 main_call0.v14 (broadcastInDim S16384x768 ![0] bcast_S16384_S16384x768_0),
    StableHlo.TRef.nullary main_call0.cst (constant S_ .f32 0x7FC00000#32),
    StableHlo.TRef.unary main_call0.cst main_call0.v15 (broadcastInDim S16384x768 ![] bcast_S_S16384x768),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (StableHlo.TRef.of main_v15 : StableHlo.TRef sig ⟨S16384, .i32⟩) main_call1.v0 main_call1.v1 (cmpi .slt),
    StableHlo.TRef.nullary main_call1.c_0 (constantI S_ 32 32#32),
    StableHlo.TRef.unary main_call1.c_0 main_call1.v2 (broadcastInDim S16384 ![] bcast_S_S16384),
    StableHlo.TRef.binary (StableHlo.TRef.of main_v15 : StableHlo.TRef sig ⟨S16384, .i32⟩) main_call1.v2 main_call1.v3 addi,
    StableHlo.TRef.ternary main_call1.v1 main_call1.v3 (StableHlo.TRef.of main_v15 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 31#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (StableHlo.TRef.of main_arg6 : StableHlo.TRef sig ⟨S32x768, .f32⟩) main_call1.v5 main_call1.v13 (fun x i => Host.gather gather_S32x768_S16384x1_S16384x768_1_0_n_n_0_1_1768 x i),
    StableHlo.TRef.unary main_call1.v12 main_call1.v14 (broadcastInDim S16384x768 ![0] bcast_S16384_S16384x768_0),
    StableHlo.TRef.nullary main_call1.cst (constant S_ .f32 0x7FC00000#32),
    StableHlo.TRef.unary main_call1.cst main_call1.v15 (broadcastInDim S16384x768 ![] bcast_S_S16384x768),
    StableHlo.TRef.ternary main_call1.v14 main_call1.v13 main_call1.v15 main_call1.v16 select,
    StableHlo.binary main_v16 main_v17 main_v18 (addf : (⟨S16384x768, .f32⟩ : BufTy).Contents (Elt F) → (⟨S16384x768, .f32⟩ : BufTy).Contents (Elt F) → (⟨S16384x768, .f32⟩ : BufTy).Contents (Elt F)),
    StableHlo.nullary main_cst (constant S_ .f32 0x00000000#32),
    StableHlo.binary main_v3 main_cst main_v19 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    StableHlo.unary main_v19 main_v20 (broadcastInDim S16384x1 ![0] bcast_S16384_S16384x1_0 : (⟨S16384, .f32⟩ : BufTy).Contents (Elt F) → (⟨S16384x1, .f32⟩ : BufTy).Contents (Elt F)),
    StableHlo.nullary main_cst_0 (constant S_ .f32 0x44400000#32),
    StableHlo.unary main_cst_0 main_v21 (broadcastInDim S16384x1 ![] bcast_S_S16384x1 : (⟨S_, .f32⟩ : BufTy).Contents (Elt F) → (⟨S16384x1, .f32⟩ : BufTy).Contents (Elt F)),
    StableHlo.binary main_v20 main_v21 main_v22 (Host.divf : (⟨S16384x1, .f32⟩ : BufTy).Contents (Elt F) → (⟨S16384x1, .f32⟩ : BufTy).Contents (Elt F) → (⟨S16384x1, .f32⟩ : BufTy).Contents (Elt F)),
    StableHlo.nullary main_c (constantI S_ 32 0#32),
    StableHlo.TRef.nullary main_call2.cst (constant S_ .f32 0x00000000#32),
    StableHlo.TRef.binary (StableHlo.TRef.of main_v3 : StableHlo.TRef sig ⟨S16384x768, .f32⟩) main_call2.cst main_call2.v0 (fun x v => Host.reduceAdd x v reducesTo_S16384x768_S16384_d1 h_S_),
    StableHlo.TRef.unary main_call2.v0 main_call2.v1 (broadcastInDim S16384x1 ![0] bcast_S16384_S16384x1_0),
    StableHlo.TRef.nullary main_call2.cst_0 (constant S_ .f32 0x44400000#32),
    StableHlo.TRef.unary main_call2.cst_0 main_call2.v2 (broadcastInDim S16384x1 ![] bcast_S_S16384x1),
    StableHlo.TRef.binary main_call2.v1 main_call2.v2 main_call2.v3 Host.divf,
    StableHlo.TRef.unary main_call2.v3 main_call2.v4 (broadcastInDim S16384x768 ![0, 1] bcast_S16384x1_S16384x768_0_1),
    StableHlo.TRef.binary (StableHlo.TRef.of main_v3 : StableHlo.TRef sig ⟨S16384x768, .f32⟩) main_call2.v4 main_call2.v5 subf,
    StableHlo.TRef.binary main_call2.v5 main_call2.v5 main_call2.v6 mulf,
    StableHlo.TRef.unary (StableHlo.TRef.of main_c : StableHlo.TRef sig ⟨S_, .i32⟩) main_call2.v7 (sitofp .f32),
    StableHlo.TRef.nullary main_call2.cst_1 (constant S_ .f32 0x44400000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x768_S16384_d1 h_S_),
    StableHlo.TRef.unary main_call2.v9 main_call2.v10 (broadcastInDim S16384x1 ![0] bcast_S16384_S16384x1_0),
    StableHlo.TRef.unary main_call2.v8 main_call2.v11 (broadcastInDim S16384x1 ![] bcast_S_S16384x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16384x1 ![] bcast_S_S16384x1),
    StableHlo.TRef.ternary main_call2.v13 main_call2.v12 main_call2.call0.v1 main_call2.call0.v2 (fun p a b => select (broadcastInDim S16384x1 ![] bcast_S_S16384x1 p) a b),
    StableHlo.unary main_v22 main_v24 (broadcastInDim S16384x768 ![0, 1] bcast_S16384x1_S16384x768_0_1 : (⟨S16384x1, .f32⟩ : BufTy).Contents (Elt F) → (⟨S16384x768, .f32⟩ : BufTy).Contents (Elt F)),
    StableHlo.binary main_v3 main_v24 main_v25 (subf : (⟨S16384x768, .f32⟩ : BufTy).Contents (Elt F) → (⟨S16384x768, .f32⟩ : BufTy).Contents (Elt F) → (⟨S16384x768, .f32⟩ : BufTy).Contents (Elt F)),
    StableHlo.nullary main_cst_1 (constant S_ .f32 0x3727C5AC#32),
    StableHlo.unary main_cst_1 main_v26 (broadcastInDim S16384x1 ![] bcast_S_S16384x1 : (⟨S_, .f32⟩ : BufTy).Contents (Elt F) → (⟨S16384x1, .f32⟩ : BufTy).Contents (Elt F)),
    StableHlo.binary main_v23 main_v26 main_v27 (addf : (⟨S16384x1, .f32⟩ : BufTy).Contents (Elt F) → (⟨S16384x1, .f32⟩ : BufTy).Contents (Elt F) → (⟨S16384x1, .f32⟩ : BufTy).Contents (Elt F)),
    StableHlo.unary main_v27 main_v28 (Host.sqrt : (⟨S16384x1, .f32⟩ : BufTy).Contents (Elt F) → (⟨S16384x1, .f32⟩ : BufTy).Contents (Elt F)),
    StableHlo.unary main_v28 main_v29 (broadcastInDim S16384x768 ![0, 1] bcast_S16384x1_S16384x768_0_1 : (⟨S16384x1, .f32⟩ : BufTy).Contents (Elt F) → (⟨S16384x768, .f32⟩ : BufTy).Contents (Elt F)),
    StableHlo.binary main_v25 main_v29 main_v30 (Host.divf : (⟨S16384x768, .f32⟩ : BufTy).Contents (Elt F) → (⟨S16384x768, .f32⟩ : BufTy).Contents (Elt F) → (⟨S16384x768, .f32⟩ : BufTy).Contents (Elt F)),
    StableHlo.unary main_arg1 main_v31 (broadcastInDim S1x768 ![1] bcast_S768_S1x768_1 : (⟨S768, .f32⟩ : BufTy).Contents (Elt F) → (⟨S1x768, .f32⟩ : BufTy).Contents (Elt F)),
    StableHlo.unary main_v31 main_v32 (broadcastInDim S16384x768 ![0, 1] bcast_S1x768_S16384x768_0_1 : (⟨S1x768, .f32⟩ : BufTy).Contents (Elt F) → (⟨S16384x768, .f32⟩ : BufTy).Contents (Elt F)),
    StableHlo.binary main_v30 main_v32 main_v33 (mulf : (⟨S16384x768, .f32⟩ : BufTy).Contents (Elt F) → (⟨S16384x768, .f32⟩ : BufTy).Contents (Elt F) → (⟨S16384x768, .f32⟩ : BufTy).Contents (Elt F)),
    StableHlo.unary main_arg2 main_v34 ((transpose S768x768 [1, 0] · transposes_S768x768_S768x768_1_0) : (⟨S768x768, .f32⟩ : BufTy).Contents (Elt F) → (⟨S768x768, .f32⟩ : BufTy).Contents (Elt F)),
    StableHlo.binary main_v33 main_v34 main_v35 ((fun l r => Host.dotGeneral dot_S16384x768_S768x768_S16384x768_1_0_0_1_n_n none l r) : (⟨S16384x768, .f32⟩ : BufTy).Contents (Elt F) → (⟨S768x768, .f32⟩ : BufTy).Contents (Elt F) → (⟨S16384x768, .f32⟩ : BufTy).Contents (Elt F)),
    StableHlo.unary main_arg3 main_v36 (broadcastInDim S1x768 ![1] bcast_S768_S1x768_1 : (⟨S768, .f32⟩ : BufTy).Contents (Elt F) → (⟨S1x768, .f32⟩ : BufTy).Contents (Elt F)),
    StableHlo.unary main_v36 main_v37 (broadcastInDim S16384x768 ![0, 1] bcast_S1x768_S16384x768_0_1 : (⟨S1x768, .f32⟩ : BufTy).Contents (Elt F) → (⟨S16384x768, .f32⟩ : BufTy).Contents (Elt F)),
    StableHlo.binary main_v35 main_v37 main_v38 (addf : (⟨S16384x768, .f32⟩ : BufTy).Contents (Elt F) → (⟨S16384x768, .f32⟩ : BufTy).Contents (Elt F) → (⟨S16384x768, .f32⟩ : BufTy).Contents (Elt F)),
    StableHlo.nullary main_cst_2 (constant S_ .f32 0x00000000#32),
    StableHlo.binary main_v38 main_cst_2 main_v39 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    StableHlo.unary main_v39 main_v40 (broadcastInDim S16384x1 ![0] bcast_S16384_S16384x1_0 : (⟨S16384, .f32⟩ : BufTy).Contents (Elt F) → (⟨S16384x1, .f32⟩ : BufTy).Contents (Elt F)),
    StableHlo.nullary main_cst_3 (constant S_ .f32 0x44400000#32),
    StableHlo.unary main_cst_3 main_v41 (broadcastInDim S16384x1 ![] bcast_S_S16384x1 : (⟨S_, .f32⟩ : BufTy).Contents (Elt F) → (⟨S16384x1, .f32⟩ : BufTy).Contents (Elt F)),
    StableHlo.binary main_v40 main_v41 main_v42 (Host.divf : (⟨S16384x1, .f32⟩ : BufTy).Contents (Elt F) → (⟨S16384x1, .f32⟩ : BufTy).Contents (Elt F) → (⟨S16384x1, .f32⟩ : BufTy).Contents (Elt F)),
    StableHlo.nullary main_c_4 (constantI S_ 32 0#32),
    StableHlo.TRef.nullary main_call3.cst (constant S_ .f32 0x00000000#32),
    StableHlo.TRef.binary (StableHlo.TRef.of main_v38 : StableHlo.TRef sig ⟨S16384x768, .f32⟩) main_call3.cst main_call3.v0 (fun x v => Host.reduceAdd x v reducesTo_S16384x768_S16384_d1 h_S_),
    StableHlo.TRef.unary main_call3.v0 main_call3.v1 (broadcastInDim S16384x1 ![0] bcast_S16384_S16384x1_0),
    StableHlo.TRef.nullary main_call3.cst_0 (constant S_ .f32 0x44400000#32),
    StableHlo.TRef.unary main_call3.cst_0 main_call3.v2 (broadcastInDim S16384x1 ![] bcast_S_S16384x1),
    StableHlo.TRef.binary main_call3.v1 main_call3.v2 main_call3.v3 Host.divf,
    StableHlo.TRef.unary main_call3.v3 main_call3.v4 (broadcastInDim S16384x768 ![0, 1] bcast_S16384x1_S16384x768_0_1),
    StableHlo.TRef.binary (StableHlo.TRef.of main_v38 : StableHlo.TRef sig ⟨S16384x768, .f32⟩) main_call3.v4 main_call3.v5 subf,
    StableHlo.TRef.binary main_call3.v5 main_call3.v5 main_call3.v6 mulf,
    StableHlo.TRef.unary (StableHlo.TRef.of main_c_4 : StableHlo.TRef sig ⟨S_, .i32⟩) main_call3.v7 (sitofp .f32),
    StableHlo.TRef.nullary main_call3.cst_1 (constant S_ .f32 0x44400000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16384x768_S16384_d1 h_S_),
    StableHlo.TRef.unary main_call3.v9 main_call3.v10 (broadcastInDim S16384x1 ![0] bcast_S16384_S16384x1_0),
    StableHlo.TRef.unary main_call3.v8 main_call3.v11 (broadcastInDim S16384x1 ![] bcast_S_S16384x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S16384x1 ![] bcast_S_S16384x1),
    StableHlo.TRef.ternary main_call3.v13 main_call3.v12 main_call3.call0.v1 main_call3.call0.v2 (fun p a b => select (broadcastInDim S16384x1 ![] bcast_S_S16384x1 p) a b),
    StableHlo.unary main_v42 main_v44 (broadcastInDim S16384x768 ![0, 1] bcast_S16384x1_S16384x768_0_1 : (⟨S16384x1, .f32⟩ : BufTy).Contents (Elt F) → (⟨S16384x768, .f32⟩ : BufTy).Contents (Elt F)),
    StableHlo.binary main_v38 main_v44 main_v45 (subf : (⟨S16384x768, .f32⟩ : BufTy).Contents (Elt F) → (⟨S16384x768, .f32⟩ : BufTy).Contents (Elt F) → (⟨S16384x768, .f32⟩ : BufTy).Contents (Elt F)),
    StableHlo.nullary main_cst_5 (constant S_ .f32 0x3727C5AC#32),
    StableHlo.unary main_cst_5 main_v46 (broadcastInDim S16384x1 ![] bcast_S_S16384x1 : (⟨S_, .f32⟩ : BufTy).Contents (Elt F) → (⟨S16384x1, .f32⟩ : BufTy).Contents (Elt F)),
    StableHlo.binary main_v43 main_v46 main_v47 (addf : (⟨S16384x1, .f32⟩ : BufTy).Contents (Elt F) → (⟨S16384x1, .f32⟩ : BufTy).Contents (Elt F) → (⟨S16384x1, .f32⟩ : BufTy).Contents (Elt F)),
    StableHlo.unary main_v47 main_v48 (Host.sqrt : (⟨S16384x1, .f32⟩ : BufTy).Contents (Elt F) → (⟨S16384x1, .f32⟩ : BufTy).Contents (Elt F)),
    StableHlo.unary main_v48 main_v49 (broadcastInDim S16384x768 ![0, 1] bcast_S16384x1_S16384x768_0_1 : (⟨S16384x1, .f32⟩ : BufTy).Contents (Elt F) → (⟨S16384x768, .f32⟩ : BufTy).Contents (Elt F)),
    StableHlo.binary main_v45 main_v49 main_v50 (Host.divf : (⟨S16384x768, .f32⟩ : BufTy).Contents (Elt F) → (⟨S16384x768, .f32⟩ : BufTy).Contents (Elt F) → (⟨S16384x768, .f32⟩ : BufTy).Contents (Elt F)),
    StableHlo.unary main_arg4 main_v51 (broadcastInDim S1x768 ![1] bcast_S768_S1x768_1 : (⟨S768, .f32⟩ : BufTy).Contents (Elt F) → (⟨S1x768, .f32⟩ : BufTy).Contents (Elt F)),
    StableHlo.unary main_v51 main_v52 (broadcastInDim S16384x768 ![0, 1] bcast_S1x768_S16384x768_0_1 : (⟨S1x768, .f32⟩ : BufTy).Contents (Elt F) → (⟨S16384x768, .f32⟩ : BufTy).Contents (Elt F)),
    StableHlo.binary main_v50 main_v52 main_v53 (mulf : (⟨S16384x768, .f32⟩ : BufTy).Contents (Elt F) → (⟨S16384x768, .f32⟩ : BufTy).Contents (Elt F) → (⟨S16384x768, .f32⟩ : BufTy).Contents (Elt F)),
    StableHlo.binary main_v53 main_v18 main_v54 (addf : (⟨S16384x768, .f32⟩ : BufTy).Contents (Elt F) → (⟨S16384x768, .f32⟩ : BufTy).Contents (Elt F) → (⟨S16384x768, .f32⟩ : BufTy).Contents (Elt F)),
    StableHlo.reshape main_v54 main_v55 rfl shapeCasts_S16384x768_S16x1024x768 ]

set_option maxRecDepth 8192 in
set_option maxHeartbeats 4000000 in

theorem main_eq (c : Dev nD) : main (F := F) c = seq ops := by
  simp only [main, main_part0, main_part1, fn_take.body, fn_where.body, fn_var.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., reshape_bufs_sub .., nullary_bufs_sub .., nullary_bufs_sub ..,
    unary_bufs_sub .., unary_bufs_sub .., reshape_bufs_sub .., reshape_bufs_sub .., unary_bufs_sub .., reshape_bufs_sub ..,
    reshape_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    binary_bufs_sub .., reshape_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

end Line

attribute [local irreducible] Host.reduceAdd Host.reduce Host.gather Host.divf Host.sqrt addf mulf subf select cmpf cmpi andi addi sitofp broadcastInDim transpose shapeCast constant constantI iotaInDim in
set_option maxRecDepth 65536 in
set_option maxHeartbeats 4000000 in

theorem out_eq (V : Valuation τ sig (Elt Ideal)) :
    after (ops (F := Ideal)) V (main_v55 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 8192 in
set_option maxHeartbeats 4000000 in

theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in

theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in

theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in

theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in

theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in

theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in

theorem arg6_eq (V : Valuation τ sig (Elt Ideal)) :
    after (ops (F := Ideal)) V (main_arg6 : DevRef τ sig) = V (main_arg6 : DevRef τ sig) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v55).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ
      (fun _ => List.forall_iff_forall_mem.mp ops_fresh))

end Cert.ReferenceIdeal.Hand

end
-- ==== Proof.Ref.Layout.lean ====
import proofs.«111676_g55894704390624_cont_9to1_m_944_13_alg».proof.Proof.Ref.Terms
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll
import Idealize.ShloMosaic.PureOps.Ideal.Laws

set_option maxRecDepth 16384

noncomputable section

namespace Cert.ReferenceIdeal.Hand

open Cert.ReferenceIdeal
open Idealize.ShloMosaic
open Idealize.ShloMosaic.ValueIdx

variable [Facts]
open Facts₀ Facts

theorem tokf_apply (a0 : FVec Ideal S16x3x512x512 .f32) (B : Fin 16) (t : Fin 1024) (k : Fin 768) :
    tokf a0 (ValueIdx.ix2 (⟨B.val * 1024 + t.val, by omega⟩ : Fin 16384) k)
      = a0 (ValueIdx.ix4 B (⟨k.val / 256, by have := k.isLt; omega⟩ : Fin 3)
          (⟨(t.val / 32) * 16 + (k.val % 256) / 16, by have := t.isLt; omega⟩ : Fin 512)
          (⟨(t.val % 32) * 16 + k.val % 16, by omega⟩ : Fin 512)) := by
  have hB := B.isLt
  have ht := t.isLt
  have hk := k.isLt
  unfold tokf

  refine (shapeCast_apply _ _ _ (ix4 B (⟨t.val / 32, by omega⟩ : Fin 32) (⟨t.val % 32, by omega⟩ : Fin 32) k) (by
    rw [Shape.rowMajor_val_four, Shape.rowMajor_val_two]
    show ((B.val * 32 + t.val / 32) * 32 + t.val % 32) * 768 + k.val = (B.val * 1024 + t.val) * 768 + k.val
    omega)).trans ?_

  refine (shapeCast_apply _ _ _ (ix6 B (⟨t.val / 32, by omega⟩ : Fin 32) (⟨t.val % 32, by omega⟩ : Fin 32)
      (⟨k.val / 256, by omega⟩ : Fin 3) (⟨k.val % 256 / 16, by omega⟩ : Fin 16) (⟨k.val % 16, by omega⟩ : Fin 16)) (by
    rw [Shape.rowMajor_val_six, Shape.rowMajor_val_four]
    show ((((B.val * 32 + t.val / 32) * 32 + t.val % 32) * 3 + k.val / 256) * 16 + k.val % 256 / 16) * 16 + k.val % 16
        = ((B.val * 32 + t.val / 32) * 32 + t.val % 32) * 768 + k.val
    omega)).trans ?_

  refine (transpose_apply _ _ _ _ (ix6 B (⟨k.val / 256, by omega⟩ : Fin 3) (⟨t.val / 32, by omega⟩ : Fin 32)
      (⟨k.val % 256 / 16, by omega⟩ : Fin 16) (⟨t.val % 32, by omega⟩ : Fin 32) (⟨k.val % 16, by omega⟩ : Fin 16))
    (fun b => match b with
      | ⟨0, _⟩ => rfl | ⟨1, _⟩ => rfl | ⟨2, _⟩ => rfl | ⟨3, _⟩ => rfl | ⟨4, _⟩ => rfl | ⟨5, _⟩ => rfl)).trans ?_

  refine shapeCast_apply _ _ _ _ (by
    rw [Shape.rowMajor_val_four, Shape.rowMajor_val_six]
    show ((B.val * 3 + k.val / 256) * 512 + (t.val / 32 * 16 + k.val % 256 / 16)) * 512 + (t.val % 32 * 16 + k.val % 16)
        = ((((B.val * 3 + k.val / 256) * 32 + t.val / 32) * 16 + k.val % 256 / 16) * 32 + t.val % 32) * 16 + k.val % 16
    omega)

theorem hidxf_apply (B : Fin 16) (t : Fin 1024) :
    hidxf (ix1 (⟨B.val * 1024 + t.val, by omega⟩ : Fin 16384)) = BitVec.ofNat 32 (t.val / 32) := by
  have hB := B.isLt
  have ht := t.isLt
  unfold hidxf

  refine (shapeCast_apply _ _ _ (ix2 B t) (by
    rw [Shape.rowMajor_val_two, Shape.rowMajor_val_one]
    show B.val * 1024 + t.val = B.val * 1024 + t.val
    rfl)).trans ?_

  refine (broadcastInDim_apply _ _ _ _ (ix2 (0 : Fin 1) t)
    (fun a => match a with | ⟨0, _⟩ => rfl | ⟨1, _⟩ => rfl)).trans ?_
  refine (shapeCast_apply _ _ _ (ix1 t) (by
    rw [Shape.rowMajor_val_one, Shape.rowMajor_val_two]
    show t.val = 0 * 1024 + t.val
    omega)).trans ?_

  refine (shapeCast_apply _ _ _ (ix2 (⟨t.val / 32, by omega⟩ : Fin 32) (⟨t.val % 32, by omega⟩ : Fin 32)) (by
    rw [Shape.rowMajor_val_two, Shape.rowMajor_val_one]
    show t.val / 32 * 32 + t.val % 32 = t.val
    omega)).trans ?_

  refine (broadcastInDim_apply _ _ _ _ (ix1 (⟨t.val / 32, by omega⟩ : Fin 32))
    (fun a => match a with | ⟨0, _⟩ => rfl)).trans ?_
  rfl

theorem widxf_apply (B : Fin 16) (t : Fin 1024) :
    widxf (ix1 (⟨B.val * 1024 + t.val, by omega⟩ : Fin 16384)) = BitVec.ofNat 32 (t.val % 32) := by
  have hB := B.isLt
  have ht := t.isLt
  unfold widxf
  refine (shapeCast_apply _ _ _ (ix2 B t) (by
    rw [Shape.rowMajor_val_two, Shape.rowMajor_val_one]
    show B.val * 1024 + t.val = B.val * 1024 + t.val
    rfl)).trans ?_
  refine (broadcastInDim_apply _ _ _ _ (ix2 (0 : Fin 1) t)
    (fun a => match a with | ⟨0, _⟩ => rfl | ⟨1, _⟩ => rfl)).trans ?_
  refine (shapeCast_apply _ _ _ (ix1 t) (by
    rw [Shape.rowMajor_val_one, Shape.rowMajor_val_two]
    show t.val = 0 * 1024 + t.val
    omega)).trans ?_
  refine (shapeCast_apply _ _ _ (ix2 (⟨t.val / 32, by omega⟩ : Fin 32) (⟨t.val % 32, by omega⟩ : Fin 32)) (by
    rw [Shape.rowMajor_val_two, Shape.rowMajor_val_one]
    show t.val / 32 * 32 + t.val % 32 = t.val
    omega)).trans ?_

  refine (broadcastInDim_apply _ _ _ _ (ix1 (⟨t.val % 32, by omega⟩ : Fin 32))
    (fun a => match a with | ⟨0, _⟩ => rfl)).trans ?_
  rfl

theorem wrap_small (w : BitVec 32) (hw : w.toNat < 32) :
    Scalar.select (IntOp.cmpi .slt w 0#32) (IntOp.addi w 32#32) w = w := by
  have h0 : ¬ IntOp.cmpi .slt w 0#32 = 1#1 := by
    rw [StableHlo.Predicate.slt_iff_toNat (by omega) (by decide)]
    exact Nat.not_lt_zero _
  rw [eq_zero_of_ne_one h0, select_zero]

theorem takeIdx_apply (idx : IVec S16384 32) (T : Fin 16384) (c : Fin 1) :
    takeIdx idx (ix2 T c)
      = Scalar.select (IntOp.cmpi .slt (idx (ix1 T)) 0#32) (IntOp.addi (idx (ix1 T)) 32#32) (idx (ix1 T)) := by
  unfold takeIdx
  refine (broadcastInDim_apply _ _ _ _ (ix1 T) (fun a => match a with | ⟨0, _⟩ => rfl)).trans ?_
  rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ (fun i hi => hx i ?_)
  simpa using (List.mem_filter.1 hi).2

theorem takeMask_apply (idx : IVec S16384 32) (T : Fin 16384) (hw : (idx (ix1 T)).toNat < 32) :
    takeMask idx (ix1 T) = 1#1 := by
  unfold takeMask
  refine reduce_andi_one _ _ _ _ _ rfl (fun i hd => ?_)
  have h0 : (i 0).val = T.val := by
    have e := Shape.ReducesTo.drop_apply_val_of_eq reducesTo_S16384x1_S16384_d1 i (0 : Fin 1) (0 : Fin 2) (by decide) (by decide)
    rw [hd] at e
    exact e.symm
  obtain ⟨c, hc⟩ : ∃ c : Fin 1, i = ix2 T c := ⟨i 1, by
    funext a
    match a with
    | ⟨0, _⟩ => exact Fin.ext h0
    | ⟨1, _⟩ => rfl⟩
  rw [hc]
  show IntOp.andi (IntOp.cmpi .sge (takeIdx idx (ix2 T c)) 0#32) (IntOp.cmpi .sle (takeIdx idx (ix2 T c)) 31#32) = 1#1
  rw [takeIdx_apply, wrap_small _ hw]
  exact IntOp.andi_eq_one.2
    ⟨(StableHlo.Predicate.sge_iff_toNat (by omega) (by decide)).2 (Nat.zero_le _),
     (StableHlo.Predicate.sle_iff_toNat (by omega) (by decide)).2 (by show (idx (ix1 T)).toNat ≤ 31; omega)⟩

theorem gather_row {α : Type} (tbl : S32x768.Idx → α) (idx : IVec S16384x1 32) (T : Fin 16384) (d : Fin 768) :
    Host.gather gather_S32x768_S16384x1_S16384x768_1_0_n_n_0_1_1768 tbl idx (ix2 T d)
      = tbl (ix2 (⟨min (idx (ix2 T (0 : Fin 1))).toInt.toNat 31, by omega⟩ : Fin 32) d) := by
  unfold Host.gather
  congr 1
  funext a
  refine Fin.ext ?_
  match a with
  | ⟨0, _⟩ =>
    show GatherDims.start gather_S32x768_S16384x1_S16384x768_1_0_n_n_0_1_1768 (ix2 T d) idx 0
        + GatherDims.batchCoord gather_S32x768_S16384x1_S16384x768_1_0_n_n_0_1_1768 (ix2 T d) 0
        + GatherDims.offCoord gather_S32x768_S16384x1_S16384x768_1_0_n_n_0_1_1768 (ix2 T d) 0
        = min (idx (ix2 T (0 : Fin 1))).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : GatherDims.siIdx gather_S32x768_S16384x1_S16384x768_1_0_n_n_0_1_1768 (ix2 T d)
        ⟨List.idxOf (0 : Fin 2) [(0 : Fin 2)], List.idxOf_lt_length_iff.2 (List.mem_singleton.mpr rfl)⟩ = ix2 T (0 : Fin 1) := by
      funext b
      refine Fin.ext ?_
      match b with
      | ⟨0, _⟩ => rfl
      | ⟨1, _⟩ => rfl
    exact congrArg (fun q => min (idx q).toInt.toNat 31) hsi
  | ⟨1, _⟩ =>
    show GatherDims.start gather_S32x768_S16384x1_S16384x768_1_0_n_n_0_1_1768 (ix2 T d) idx 1
        + GatherDims.batchCoord gather_S32x768_S16384x1_S16384x768_1_0_n_n_0_1_1768 (ix2 T d) 1
        + GatherDims.offCoord gather_S32x768_S16384x1_S16384x768_1_0_n_n_0_1_1768 (ix2 T d) 1
        = d.val
    have hs : GatherDims.start gather_S32x768_S16384x1_S16384x768_1_0_n_n_0_1_1768 (ix2 T d) idx 1 = 0 := by
      unfold GatherDims.start
      exact dif_neg (show (1 : Fin 2) ∉ [(0 : Fin 2)] by decide)
    have ho : GatherDims.offCoord gather_S32x768_S16384x1_S16384x768_1_0_n_n_0_1_1768 (ix2 T d) 1 = d.val := by
      unfold GatherDims.offCoord
      exact (dif_pos (show (1 : Fin 2) ∈ S32x768.kept ([(0 : Fin 2)] ++ []) by decide)).trans rfl
    rw [hs, GatherDims.batchCoord_eq_zero _ _ _ List.not_mem_nil, ho, Nat.add_zero, Nat.zero_add]

theorem takef_apply (tbl : FVec Ideal S32x768 .f32) (idx : IVec S16384 32) (T : Fin 16384) (d : Fin 768) (r : Nat) (hr : r < 32)
    (hv : idx (ix1 T) = BitVec.ofNat 32 r) : takef tbl idx (ix2 T d) = tbl (ix2 (⟨r, hr⟩ : Fin 32) d) := by
  have hn : (idx (ix1 T)).toNat = r := by
    rw [hv, BitVec.toNat_ofNat]
    exact Nat.mod_eq_of_lt (by omega)
  have hw : (idx (ix1 T)).toNat < 32 := by omega
  unfold takef
  rw [select_apply]
  have hm : broadcastInDim S16384x768 ![0] bcast_S16384_S16384x768_0 (takeMask idx) (ix2 T d) = 1#1 :=
    (broadcastInDim_apply _ _ _ _ (ix1 T) (fun a => match a with | ⟨0, _⟩ => rfl)).trans (takeMask_apply idx T hw)
  rw [hm, select_one, gather_row]
  refine congrArg (fun p : Fin 32 => tbl (ix2 p d)) (Fin.ext ?_)
  show min (takeIdx idx (ix2 T (0 : Fin 1))).toInt.toNat 31 = r
  rw [takeIdx_apply, wrap_small _ hw, StableHlo.Predicate.toInt_eq_toNat_of_lt (by omega), Int.toNat_natCast, hn]
  omega

theorem posf_apply (a5 a6 : FVec Ideal S32x768 .f32) (B : Fin 16) (t : Fin 1024) (d : Fin 768) :
    posf a5 a6 (ValueIdx.ix2 (⟨B.val * 1024 + t.val, by omega⟩ : Fin 16384) d)
      = a5 (ValueIdx.ix2 (⟨t.val / 32, by have := t.isLt; omega⟩ : Fin 32) d)
        + a6 (ValueIdx.ix2 (⟨t.val % 32, by omega⟩ : Fin 32) d) := by
  unfold posf
  rw [addf_apply,
    takef_apply a5 hidxf _ d (t.val / 32) (by have := t.isLt; omega) (hidxf_apply B t),
    takef_apply a6 widxf _ d (t.val % 32) (by omega) (widxf_apply B t)]

end Cert.ReferenceIdeal.Hand

end
-- ==== Proof.Ref.Num.lean ====
import proofs.«111676_g55894704390624_cont_9to1_m_944_13_alg».proof.Proof.Ref.Terms
import proofs.«111676_g55894704390624_cont_9to1_m_944_13_alg».proof.Proof.Spec
import proofs.«111676_g55894704390624_cont_9to1_m_944_13_alg».proof.Proof.LibCoe
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.Hand

open Cert.ReferenceIdeal
open Idealize.ShloMosaic Idealize.ShloMosaic.ValueIdx
open Finset BigOperators

variable [Facts]
open Facts₀ Facts

theorem splat_apply {α : Type} {t : Shape} (h : S_.BroadcastsInDim t (![] : Fin 0 → Fin t.rank)) (v : S_.Idx → α) (j : t.Idx) :
    broadcastInDim t ![] h v j = v ix0 :=
  broadcastInDim_apply _ h v j ix0 fun a => a.elim0

theorem col_apply {α : Type} (h : S16384.BroadcastsInDim S16384x1 (![0] : Fin 1 → Fin S16384x1.rank)) (v : S16384.Idx → α)
    (T : Fin 16384) (z : Fin 1) : broadcastInDim S16384x1 ![0] h v (ix2 T z) = v (ix1 T) :=
  broadcastInDim_apply _ h v _ (ix1 T) fun a => match a with
    | ⟨0, _⟩ => (if_neg (show ¬((16384 : ℕ) = 1) by decide)).symm

theorem colRep_apply {α : Type} (h : S16384x1.BroadcastsInDim S16384x768 (![0, 1] : Fin 2 → Fin S16384x768.rank))
    (v : S16384x1.Idx → α) (T : Fin 16384) (k : Fin 768) :
    broadcastInDim S16384x768 ![0, 1] h v (ix2 T k) = v (ix2 T (0 : Fin 1)) :=
  broadcastInDim_apply _ h v _ (ix2 T (0 : Fin 1)) fun a => match a with
    | ⟨0, _⟩ => (if_neg (show ¬((16384 : ℕ) = 1) by decide)).symm
    | ⟨1, _⟩ => (if_pos (show ((1 : ℕ) = 1) from rfl)).symm

theorem rowg_apply (g : FVec Ideal S768 .f32) (T : Fin 16384) (k : Fin 768) : rowg g (ix2 T k) = g (ix1 k) := by
  unfold rowg
  refine (broadcastInDim_apply _ bcast_S1x768_S16384x768_0_1 _ _ (ix2 (0 : Fin 1) k) fun a => match a with
    | ⟨0, _⟩ => (if_pos (show ((1 : ℕ) = 1) from rfl)).symm
    | ⟨1, _⟩ => (if_neg (show ¬((768 : ℕ) = 1) by decide)).symm).trans ?_
  exact broadcastInDim_apply _ bcast_S768_S1x768_1 g _ (ix1 k) fun a => match a with
    | ⟨0, _⟩ => (if_neg (show ¬((768 : ℕ) = 1) by decide)).symm

theorem hostDivf_apply {s : Shape} {φ : FTy} (a b : FVec Ideal s φ) (i : s.Idx) : Host.divf a b i = Ideal.div (a i) (b i) := rfl

theorem hostSqrt_apply {s : Shape} {φ : FTy} (a : FVec Ideal s φ) (i : s.Idx) : Host.sqrt a i = Ideal.sqrt (a i) := rfl

theorem ofBits_768 : Ideal.ofBits .f32 0x44400000#32 = ((768 : ℝ) : EReal) := by
  simp [Ideal.ofBits, Ideal.ieee, -EReal.coe_mul]; norm_num

theorem ddofF_apply (j : S_.Idx) : ddofF j = ((768 : ℝ) : EReal) := by
  show Ideal.ofBits .f32 0x44400000#32 - (((0#32 : BitVec 32).toInt : ℝ) : EReal) = _
  rw [ofBits_768, BitVec.toInt_zero, Int.cast_zero, LibCoe.sub_coe, sub_zero]

theorem guard_apply (j : S_.Idx) : cmpf .ogt ddofF (constant (F := Ideal) S_ .f32 0x00000000#32) j = 1#1 := by
  rw [cmpf_apply, ddofF_apply, constant_apply, Ideal.cmpf_def, LibCoe.ofBits_zero]
  exact LibCoe.cmp_ogt_coe_zero_of_pos (by norm_num)

theorem rowSum_apply (y : FVec Ideal S16384x768 .f32) (Y : Fin 16384 → Fin 768 → ℝ)
    (hy : ∀ (T : Fin 16384) (k : Fin 768), y (ix2 T k) = ((Y T k : ℝ) : EReal)) (T : Fin 16384) :
    Host.reduceAdd (F := Ideal) y (constant (F := Ideal) S_ .f32 0x00000000#32) reducesTo_S16384x768_S16384_d1 h_S_ (ix1 T)
      = ((∑ k, Y T k : ℝ) : EReal) := by
  have hR : S16384x768.Reduces [1] S16384 := by decide
  show Ideal.hostReduceAdd reducesTo_S16384x768_S16384_d1 y (Ideal.ofBits .f32 0x00000000#32) (ix1 T) = _
  rw [Ideal.hostReduceAdd_single _ hR, LibCoe.ofBits_zero]
  have hk : ∀ k : Fin 768, y (hR.lift (ix1 T) k) = ((Y T k : ℝ) : EReal) := fun k => by
    rw [show hR.lift (ix1 T) k = ix2 T k from funext fun a => Fin.ext (match a with | ⟨0, _⟩ => rfl | ⟨1, _⟩ => rfl)]
    exact hy T k
  show ((0 : ℝ) : EReal) + ∑ k : Fin 768, y (hR.lift (ix1 T) k) = _
  rw [Finset.sum_congr rfl fun k _ => hk k, LibCoe.sum_coe, LibCoe.add_coe, zero_add]

section Stages
variable (x : FVec Ideal S16384x768 .f32) (X : Fin 16384 → Fin 768 → ℝ)
  (hx : ∀ (T : Fin 16384) (k : Fin 768), x (ix2 T k) = ((X T k : ℝ) : EReal))
include hx

theorem meanf_apply (T : Fin 16384) (z : Fin 1) : meanf x (ix2 T z) = ((Cert.Spec.mean (X T) : ℝ) : EReal) := by
  unfold meanf
  rw [hostDivf_apply, col_apply, splat_apply, rowSum_apply x X hx, constant_apply, ofBits_768, LibCoe.div_coe_coe _ (by norm_num)]
  rfl

theorem centerf_apply (T : Fin 16384) (k : Fin 768) :
    centerf x (ix2 T k) = ((X T k - Cert.Spec.mean (X T) : ℝ) : EReal) := by
  unfold centerf
  rw [subf_apply, colRep_apply, meanf_apply x X hx, hx, LibCoe.sub_coe]

theorem varf_apply (T : Fin 16384) (z : Fin 1) : varf x (ix2 T z) = ((Cert.Spec.var (X T) : ℝ) : EReal) := by
  unfold varf
  rw [select_apply, splat_apply, guard_apply, select_one, hostDivf_apply, col_apply, splat_apply, ddofF_apply,
    rowSum_apply (mulf (centerf x) (centerf x)) (fun T k => (X T k - Cert.Spec.mean (X T)) * (X T k - Cert.Spec.mean (X T)))
      (fun T k => by rw [mulf_apply, centerf_apply x X hx, LibCoe.mul_coe]),
    LibCoe.div_coe_coe _ (by norm_num)]
  rfl

end Stages

theorem sqrt_coe_pos {r : ℝ} (hr : 0 < r) : Ideal.sqrt (r : EReal) = ((Real.sqrt r : ℝ) : EReal) := by
  rw [Ideal.sqrt_coe, if_neg (not_lt.mpr hr.le)]

theorem lnf_apply (x : FVec Ideal S16384x768 .f32) (g : FVec Ideal S768 .f32) (X : Fin 16384 → Fin 768 → ℝ) (G : Fin 768 → ℝ)
    (hx : ∀ (T : Fin 16384) (k : Fin 768), x (ix2 T k) = ((X T k : ℝ) : EReal))
    (hg : ∀ k : Fin 768, g (ix1 k) = ((G k : ℝ) : EReal)) (T : Fin 16384) (k : Fin 768) :
    lnf x g (ix2 T k) = ((Cert.Spec.lnR (X T) G k : ℝ) : EReal) := by
  have hpos := Cert.Spec.var_eps_pos (X T)
  unfold lnf
  rw [mulf_apply, rowg_apply, hg, hostDivf_apply, colRep_apply, hostSqrt_apply, addf_apply, splat_apply, constant_apply, LibCoe.ofBits_eps, varf_apply x X hx, centerf_apply x X hx, LibCoe.add_coe,
    sqrt_coe_pos hpos, LibCoe.div_coe_coe _ (Real.sqrt_pos.mpr hpos).ne', LibCoe.mul_coe]
  rfl

theorem linf_apply (z : FVec Ideal S16384x768 .f32) (a2 : FVec Ideal S768x768 .f32) (a3 : FVec Ideal S768 .f32)
    (Z : Fin 16384 → Fin 768 → ℝ) (W : Fin 768 → Fin 768 → ℝ) (b : Fin 768 → ℝ)
    (hz : ∀ T k, z (ix2 T k) = ((Z T k : ℝ) : EReal)) (hW : ∀ d k : Fin 768, a2 (ix2 d k) = ((W d k : ℝ) : EReal))
    (hb : ∀ d : Fin 768, a3 (ix1 d) = ((b d : ℝ) : EReal)) (T : Fin 16384) (d : Fin 768) :
    linf z a2 a3 (ix2 T d) = ((Cert.Spec.linR (Z T) W b d : ℝ) : EReal) := by
  have hD : dot_S16384x768_S768x768_S16384x768_1_0_0_1_n_n = DotDims.plain 16384 768 768 := rfl
  unfold linf
  rw [addf_apply, rowg_apply, hb, hD, StackMember.dotGeneral_plain_apply]
  have hk : ∀ c : Fin 768, z (ix2 T c) * transpose S768x768 [1, 0] a2 transposes_S768x768_S768x768_1_0 (ix2 c d)
      = ((Z T c * W d c : ℝ) : EReal) := fun c => by
    rw [transpose_ix2_apply, hz, hW, LibCoe.mul_coe]
  rw [Finset.sum_congr rfl fun c _ => hk c, LibCoe.sum_coe, LibCoe.add_coe]
  rfl

end Cert.ReferenceIdeal.Hand

end
-- ==== Proof.Ref.Value.lean ====
import proofs.«111676_g55894704390624_cont_9to1_m_944_13_alg».proof.Proof.Ref.Terms
import proofs.«111676_g55894704390624_cont_9to1_m_944_13_alg».proof.Proof.Ref.Layout
import proofs.«111676_g55894704390624_cont_9to1_m_944_13_alg».proof.Proof.Ref.Num
import proofs.«111676_g55894704390624_cont_9to1_m_944_13_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Cert.ReferenceIdeal
open Idealize.ShloMosaic Idealize.ShloMosaic.ValueIdx

variable [Facts]
open Facts₀ Facts

private theorem row_split (T : Fin 16384) :
    T = (⟨(T.val / 1024) * 1024 + T.val % 1024, by have := T.isLt; omega⟩ : Fin 16384) := Fin.ext (by simp only []; omega)

theorem ref_value (a0 : FVec Ideal S16x3x512x512 .f32) (a1 : FVec Ideal S768 .f32) (a2 : FVec Ideal S768x768 .f32)
    (a3 a4 : FVec Ideal S768 .f32) (a5 a6 : FVec Ideal S32x768 .f32)
    (I : S16x3x512x512.Idx → ℝ) (g1 : S768.Idx → ℝ) (W : S768x768.Idx → ℝ) (b g2 : S768.Idx → ℝ) (PH PW : S32x768.Idx → ℝ)
    (h0 : (a0 : S16x3x512x512.Idx → EReal) = fun i => ((I i : ℝ) : EReal))
    (h1 : (a1 : S768.Idx → EReal) = fun i => ((g1 i : ℝ) : EReal))
    (h2 : (a2 : S768x768.Idx → EReal) = fun i => ((W i : ℝ) : EReal))
    (h3 : (a3 : S768.Idx → EReal) = fun i => ((b i : ℝ) : EReal))
    (h4 : (a4 : S768.Idx → EReal) = fun i => ((g2 i : ℝ) : EReal))
    (h5 : (a5 : S32x768.Idx → EReal) = fun i => ((PH i : ℝ) : EReal))
    (h6 : (a6 : S32x768.Idx → EReal) = fun i => ((PW i : ℝ) : EReal))
    (B : Fin 16) (t : Fin 1024) (d : Fin 768) :
    refOut a0 a1 a2 a3 a4 a5 a6 (ix3 B t d) = ((Cert.Spec.outR I g1 W b g2 PH PW B t d : ℝ) : EReal) := by

  let X : Fin 16384 → Fin 768 → ℝ := fun T k =>
    Cert.Spec.tokOf I (⟨T.val / 1024, by have := T.isLt; omega⟩ : Fin 16) (⟨T.val % 1024, by omega⟩ : Fin 1024) k
  have hX : ∀ (T : Fin 16384) (k : Fin 768), tokf a0 (ix2 T k) = ((X T k : ℝ) : EReal) := fun T k => by
    have e := tokf_apply a0 (⟨T.val / 1024, by have := T.isLt; omega⟩ : Fin 16) (⟨T.val % 1024, by omega⟩ : Fin 1024) k
    rw [← row_split T] at e
    rw [e, h0]
    rfl
  have hg1 : ∀ k : Fin 768, a1 (ix1 k) = ((g1 (ix1 k) : ℝ) : EReal) := fun k => by rw [h1]
  have hW : ∀ d k : Fin 768, a2 (ix2 d k) = ((W (ix2 d k) : ℝ) : EReal) := fun d k => by rw [h2]
  have hb : ∀ d : Fin 768, a3 (ix1 d) = ((b (ix1 d) : ℝ) : EReal) := fun d => by rw [h3]
  have hg2 : ∀ d : Fin 768, a4 (ix1 d) = ((g2 (ix1 d) : ℝ) : EReal) := fun d => by rw [h4]

  have hZ := lnf_apply (tokf a0) a1 X (fun k => g1 (ix1 k)) hX hg1
  have hY := linf_apply (lnf (tokf a0) a1) a2 a3 (fun T => Cert.Spec.lnR (X T) (fun k => g1 (ix1 k))) (fun d k => W (ix2 d k)) (fun d => b (ix1 d)) hZ hW hb
  have hO := lnf_apply (linf (lnf (tokf a0) a1) a2 a3) a4
    (fun T => Cert.Spec.linR (Cert.Spec.lnR (X T) (fun k => g1 (ix1 k))) (fun d k => W (ix2 d k)) (fun d => b (ix1 d))) (fun d => g2 (ix1 d)) hY hg2

  unfold refOut
  rw [shapeCast_apply _ _ (ix3 B t d) (ix2 (⟨B.val * 1024 + t.val, by have := B.isLt; have := t.isLt; omega⟩ : Fin 16384) d)
    (by rw [Shape.rowMajor_val_two, Shape.rowMajor_val_three]; rfl)]
  rw [ValueIdx.addf_apply, hO, posf_apply a5 a6 B t d, h5, h6]
  simp only [← EReal.coe_add]
  refine congrArg (fun x : ℝ => (x : EReal)) ?_
  have eB : (⟨(B.val * 1024 + t.val) / 1024, by have := B.isLt; have := t.isLt; omega⟩ : Fin 16) = B := Fin.ext (by have := t.isLt; simp only []; omega)
  have et : (⟨(B.val * 1024 + t.val) % 1024, by omega⟩ : Fin 1024) = t := Fin.ext (by have := t.isLt; simp only []; omega)
  simp only [Cert.Spec.outR, Cert.Spec.rowR, Cert.Spec.posOf, X, eB, et]

end Cert.ReferenceIdeal.Hand

end
-- ==== Proof.Finite.lean ====
import proofs.«111676_g55894704390624_cont_9to1_m_944_13_alg».proof.Proof.Gen.Pre_finite_inputs
import Idealize.ShloMosaic.Lib.ReduceAll
import Idealize.ShloMosaic.Lib.ValueIdx
import Idealize.ShloMosaic.PureOps.Ideal.Laws
import Mathlib.Data.EReal.Basic

set_option maxRecDepth 16384

noncomputable section

namespace Cert.Finite

open Cert.Pre_finite_inputs
open Idealize.ShloMosaic

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem reals_of_all {S : Shape} {axes : List (Fin S.rank)} (x : FVec Ideal S .f32)
    (hb : S_.BroadcastsInDim S (![] : Fin 0 → Fin S.rank)) (hr : S.ReducesTo axes S_) (hu : 0 < S_.numel)
    (j : S_.Idx)
    (e : Host.reduce IntOp.andi
          (cmpf .olt (Host.absf x) (broadcastInDim S ![] hb (constant (F := Ideal) S_ .f32 0x7F800000#32)))
          (constantI S_ 1 1#1) hr hu j = 1#1) :
    ∃ I : S.Idx → ℝ, (x : S.Idx → EReal) = fun i => ((I i : ℝ) : EReal) := by
  have hall : ∀ i, ∃ r : ℝ, x i = (r : EReal) := by
    intro i
    have h1 := Host.reduce_andi_all _ _ hr hu j e i
    change Ideal.cmp .olt (max (x i) (-(x i))) (Ideal.ofBits .f32 0x7F800000#32) = 1#1 at h1
    rw [ofBits_inf] at h1
    refine real_of_abs_lt_top (x i) ?_
    by_contra hn
    simp [Ideal.cmp, hn] at h1
  exact ⟨fun i => (hall i).choose, funext fun i => (hall i).choose_spec⟩

theorem reals_of_pre [Cert.Pre_finite_inputs.Facts] (a0 : FVec Ideal S16x3x512x512 .f32) (a1 : FVec Ideal S768 .f32) (a2 : FVec Ideal S768x768 .f32)
    (a3 a4 : FVec Ideal S768 .f32) (a5 a6 : FVec Ideal S32x768 .f32)
    (h : Cert.Pre_finite_inputs.fn (F := Ideal) a0 a1 a2 a3 a4 a5 a6 = fun _ => 1#1) :
    (∃ I : S16x3x512x512.Idx → ℝ, (a0 : S16x3x512x512.Idx → EReal) = fun i => ((I i : ℝ) : EReal))
    ∧ (∃ g1 : S768.Idx → ℝ, (a1 : S768.Idx → EReal) = fun i => ((g1 i : ℝ) : EReal))
    ∧ (∃ W : S768x768.Idx → ℝ, (a2 : S768x768.Idx → EReal) = fun i => ((W i : ℝ) : EReal))
    ∧ (∃ b : S768.Idx → ℝ, (a3 : S768.Idx → EReal) = fun i => ((b i : ℝ) : EReal))
    ∧ (∃ g2 : S768.Idx → ℝ, (a4 : S768.Idx → EReal) = fun i => ((g2 i : ℝ) : EReal))
    ∧ (∃ PH : S32x768.Idx → ℝ, (a5 : S32x768.Idx → EReal) = fun i => ((PH i : ℝ) : EReal))
    ∧ (∃ PW : S32x768.Idx → ℝ, (a6 : S32x768.Idx → EReal) = fun i => ((PW i : ℝ) : EReal)) := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all a0 _ _ _ _ e0, reals_of_all a1 _ _ _ _ e1, reals_of_all a2 _ _ _ _ e2,
    reals_of_all a3 _ _ _ _ e3, reals_of_all a4 _ _ _ _ e4, reals_of_all a5 _ _ _ _ e5, reals_of_all a6 _ _ _ _ e6⟩

end Cert.Finite

end
-- ==== Proof.lean ====
import proofs.«111676_g55894704390624_cont_9to1_m_944_13_alg».proof.Defs
import proofs.«111676_g55894704390624_cont_9to1_m_944_13_alg».proof.Proof.Gen.Kernel
import proofs.«111676_g55894704390624_cont_9to1_m_944_13_alg».proof.Proof.Gen.KernelIdeal
import proofs.«111676_g55894704390624_cont_9to1_m_944_13_alg».proof.Proof.Gen.ReferenceIdeal
import proofs.«111676_g55894704390624_cont_9to1_m_944_13_alg».proof.Proof.Gen.Pre_finite_inputs
import proofs.«111676_g55894704390624_cont_9to1_m_944_13_alg».proof.Proof.KB.Run
import proofs.«111676_g55894704390624_cont_9to1_m_944_13_alg».proof.Proof.KI.Run
import proofs.«111676_g55894704390624_cont_9to1_m_944_13_alg».proof.Proof.KI.Value
import proofs.«111676_g55894704390624_cont_9to1_m_944_13_alg».proof.Proof.Ref.Run
import proofs.«111676_g55894704390624_cont_9to1_m_944_13_alg».proof.Proof.Ref.Value
import proofs.«111676_g55894704390624_cont_9to1_m_944_13_alg».proof.Proof.Spec
import proofs.«111676_g55894704390624_cont_9to1_m_944_13_alg».proof.Proof.Finite

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

-- The reference's frame is its run with the result dropped.
theorem frame_ri : @Cert.frame_ReferenceIdeal Cert.ReferenceIdeal.Gen.facts Cert.Pre_finite_inputs.Gen.facts :=
  fun m ρ _ => (θ_run (Cert.ReferenceIdeal.defs (F := Ideal)) _ _).mono (fun _ h c => (h c).2) (Cert.ReferenceIdeal.Hand.run m ρ)

-- On finite inputs every entry of either result is the specification's output, in two arrangements of one real function.
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W9 m ρ c (Proc.devRef .tc Cert.KernelIdeal.main_v27), Cert.KernelIdeal.Hand.run_value m ρ, ?_⟩
  refine (θ_run (Cert.ReferenceIdeal.defs (F := Ideal)) _ _).mono (fun _ h c => ⟨(h c).1.trans ?_, (h c).2⟩) (Cert.ReferenceIdeal.Hand.run m' ρ')
  obtain ⟨e0, e1, e2, e3, e4, e5, e6⟩ := hagree c
  rw [e0, e1, e2, e3, e4, e5, e6]
  obtain ⟨⟨I, hI⟩, ⟨g1, hg1⟩, ⟨W, hW⟩, ⟨b, hb⟩, ⟨g2, hg2⟩, ⟨PH, hPH⟩, ⟨PW, hPW⟩⟩ := Cert.Finite.reals_of_pre _ _ _ _ _ _ _ (hpre c)
  funext j
  rw [ValueIdx.eq_ix3 j]
  exact (Cert.ReferenceIdeal.Hand.ref_value _ _ _ _ _ _ _ I g1 W b g2 PH PW hI hg1 hW hb hg2 hPH hPW _ _ _).trans
    ((congrArg (fun x : ℝ => (x : EReal)) (Cert.Spec.outK_eq_outR I g1 W b g2 PH PW _ _ _).symm).trans
      (Cert.KernelIdeal.Hand.kernel_value m ρ c ⟨I, g1, W, b, g2, PH, PW, hI, hg1, hW, hb, hg2, hPH, hPW⟩ _ _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
